-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16 : Shape := ⟨1, ![16]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_arg2 : IVec S100000 32) (main_v98 : IVec S_ 1) (main_v101 : IVec S_ 1) : IVec S_ 1 :=
  let main_v102 : IVec S_ 1 := andi main_v98 main_v101
  let main_c_40 : IVec S_ 32 := constantI S_ 32 1000#32
  let main_v103 : IVec S100000 32 := broadcastInDim S100000 ![] bcast_S_S100000 main_c_40
  let main_v104 : IVec S100000 1 := cmpi .slt main_arg2 main_v103
  let main_c_41 : IVec S_ 1 := constantI S_ 1 1#1
  let main_v105 : IVec S_ 1 := (fun x v => Host.reduce IntOp.andi x v reducesTo_S100000_S_d0 h_S_) main_v104 main_c_41
  let main_v106 : IVec S_ 1 := andi main_v102 main_v105
  main_v106

def fn_part5 {F : FTy → Type} [FloatOps F] (main_arg2 : IVec S100000 32) (main_arg20 : FVec F S64x2 .f32) (main_arg21 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x2 .f32 := Host.absf main_arg20
  let main_cst_34 : FVec F S_ .f32 := constant S_ .f32 0x7F800000#32
  let main_v90 : FVec F S64x2 .f32 := broadcastInDim S64x2 ![] bcast_S_S64x2 main_cst_34
  let main_v91 : IVec S64x2 1 := cmpf .olt main_v89 main_v90
  let main_c_35 : IVec S_ 1 := constantI S_ 1 1#1
  let main_v92 : IVec S_ 1 := (fun x v => Host.reduce IntOp.andi x v reducesTo_S64x2_S_d0_1 h_S_) main_v91 main_c_35
  let main_v93 : IVec S_ 1 := andi main_v88 main_v92
  let main_v94 : FVec F S2 .f32 := Host.absf main_arg21
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_c_38 : IVec S_ 32 := constantI S_ 32 0#32
  let main_v99 : IVec S100000 32 := broadcastInDim S100000 ![] bcast_S_S100000 main_c_38
  let main_v100 : IVec S100000 1 := cmpi .sge main_arg2 main_v99
  let main_c_39 : IVec S_ 1 := constantI S_ 1 1#1
  let main_v101 : IVec S_ 1 := (fun x v => Host.reduce IntOp.andi x v reducesTo_S100000_S_d0 h_S_) main_v100 main_c_39
  fn_part6 (F := F) main_arg2 main_v98 main_v101

def fn_part4 {F : FTy → Type} [FloatOps F] (main_arg2 : IVec S100000 32) (main_arg16 : FVec F S64x64 .f32) (main_arg17 : FVec F S64 .f32) (main_arg18 : FVec F S64x64 .f32) (main_arg19 : FVec F S64 .f32) (main_arg20 : FVec F S64x2 .f32) (main_arg21 : FVec F S2 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg2 main_arg20 main_arg21 main_v83 main_v84 main_cst_32

def fn_part3 {F : FTy → Type} [FloatOps F] (main_arg2 : IVec S100000 32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64x2 .f32) (main_arg21 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg16 main_arg17 main_arg18 main_arg19 main_arg20 main_arg21 main_v63 main_v67

def fn_part2 {F : FTy → Type} [FloatOps F] (main_arg2 : IVec S100000 32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64x2 .f32) (main_arg21 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_arg13 main_arg14 main_arg15 main_arg16 main_arg17 main_arg18 main_arg19 main_arg20 main_arg21 main_v48 main_v49 main_v50

def fn_part1 {F : FTy → Type} [FloatOps F] (main_arg2 : IVec S100000 32) (main_arg6 : FVec F S16x64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64x2 .f32) (main_arg21 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_v33

def fn {F : FTy → Type} [FloatOps F] (main_arg0 : FVec F S100000x16 .f32) (main_arg1 : IVec S2x1600000 32) (main_arg2 : IVec S100000 32) (main_arg3 : FVec F S16 .f32) (main_arg4 : FVec F S16 .f32) (main_arg5 : FVec F S16 .f32) (main_arg6 : FVec F S16x64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_arg20 : FVec F S64x2 .f32) (main_arg21 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16 : Shape := ⟨1, ![16]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1000x1 : Shape := ⟨2, ![1000, 1]⟩
abbrev S2000x1 : Shape := ⟨2, ![2000, 1]⟩
abbrev S2000x1000 : Shape := ⟨2, ![2000, 1000]⟩
abbrev S1600000x1 : Shape := ⟨2, ![1600000, 1]⟩
abbrev S1x16 : Shape := ⟨2, ![1, 16]⟩
abbrev S1000x16 : Shape := ⟨2, ![1000, 16]⟩
abbrev S2000x16 : Shape := ⟨2, ![2000, 16]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S1000x64 : Shape := ⟨2, ![1000, 64]⟩
abbrev S1x2 : Shape := ⟨2, ![1, 2]⟩
abbrev S1000x2 : Shape := ⟨2, ![1000, 2]⟩
abbrev S1000 : Shape := ⟨1, ![1000]⟩

abbrev nBuf : Space → Nat
  | .hbm => 223
  | .vmem => 112
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16, .f32⟩
  | 4 => ⟨S16, .f32⟩
  | 5 => ⟨S16, .f32⟩
  | 6 => ⟨S16x64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64x2, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S100000x1, .i32⟩
  | 27 => ⟨S_, .f32⟩
  | 28 => ⟨S100000x1, .f32⟩
  | 29 => ⟨S1000x1, .f32⟩
  | 30 => ⟨S_, .f32⟩
  | 31 => ⟨S1000x1, .f32⟩
  | 32 => ⟨S1000x1, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S100000, .f32⟩
  | 43 => ⟨S1x16, .f32⟩
  | 44 => ⟨S1x16, .f32⟩
  | 45 => ⟨S1x16, .f32⟩
  | 46 => ⟨S1000x16, .f32⟩
  | 47 => ⟨S1000x16, .f32⟩
  | 48 => ⟨S1000x16, .f32⟩
  | 49 => ⟨S100000x16, .f32⟩
  | 50 => ⟨S100000x16, .f32⟩
  | 51 => ⟨S1000x16, .f32⟩
  | 52 => ⟨S1000x16, .f32⟩
  | 53 => ⟨S1000x16, .f32⟩
  | 54 => ⟨S100000x16, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S1600000, .f32⟩
  | 84 => ⟨S1600000x1, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S100000x1, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S1x64, .f32⟩
  | 102 => ⟨S1x64, .f32⟩
  | 103 => ⟨S1x64, .f32⟩
  | 104 => ⟨S1000x64, .f32⟩
  | 105 => ⟨S1000x64, .f32⟩
  | 106 => ⟨S1000x64, .f32⟩
  | 107 => ⟨S100000x64, .f32⟩
  | 108 => ⟨S100000x64, .f32⟩
  | 109 => ⟨S1000x64, .f32⟩
  | 110 => ⟨S1000x64, .f32⟩
  | 111 => ⟨S1000x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x16, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S1600000x1, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000x1, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64, .f32⟩
  | 32 => ⟨S1x64, .f32⟩
  | 33 => ⟨S1x64, .f32⟩
  | 34 => ⟨S1000x64, .f32⟩
  | 35 => ⟨S1000x64, .f32⟩
  | 36 => ⟨S1000x64, .f32⟩
  | 37 => ⟨S100000x64, .f32⟩
  | 38 => ⟨S100000x64, .f32⟩
  | 39 => ⟨S1000x64, .f32⟩
  | 40 => ⟨S1000x64, .f32⟩
  | 41 => ⟨S1000x64, .f32⟩
  | 42 => ⟨S100000x64, .f32⟩
  | 43 => ⟨S100000x64, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S1600000x1, .f32⟩
  | 73 => ⟨S1600000x64, .f32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S1000x64, .f32⟩
  | 90 => ⟨S1000x64, .f32⟩
  | 91 => ⟨S1000x64, .f32⟩
  | 92 => ⟨S1x64, .f32⟩
  | 93 => ⟨S1x2, .f32⟩
  | 94 => ⟨S1000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S2000x1, .i32⟩
  | .local _ .vmem, ⟨3, _⟩ => ⟨S2000x1, .i32⟩
  | .local _ .vmem, ⟨4, _⟩ => ⟨S1000x1, .f32⟩
  | .local _ .vmem, ⟨5, _⟩ => ⟨S2000x16, .f32⟩
  | .local _ .vmem, ⟨6, _⟩ => ⟨S2000x16, .f32⟩
  | .local _ .vmem, ⟨7, _⟩ => ⟨S2000x1, .i32⟩
  | .local _ .vmem, ⟨8, _⟩ => ⟨S2000x1, .i32⟩
  | .local _ .vmem, ⟨9, _⟩ => ⟨S1000x16, .f32⟩
  | .local _ .vmem, ⟨10, _⟩ => ⟨S2000x16, .f32⟩
  | .local _ .vmem, ⟨11, _⟩ => ⟨S2000x16, .f32⟩
  | .local _ .vmem, ⟨12, _⟩ => ⟨S2000x1, .i32⟩
  | .local _ .vmem, ⟨13, _⟩ => ⟨S2000x1, .i32⟩
  | .local _ .vmem, ⟨14, _⟩ => ⟨S1000x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S2000x1, .i32⟩
  | .local _ .vmem, ⟨21, _⟩ => ⟨S2000x1, .i32⟩
  | .local _ .vmem, ⟨22, _⟩ => ⟨S1000x16, .f32⟩
  | .local _ .vmem, ⟨23, _⟩ => ⟨S2000x16, .f32⟩
  | .local _ .vmem, ⟨24, _⟩ => ⟨S2000x16, .f32⟩
  | .local _ .vmem, ⟨25, _⟩ => ⟨S2000x1, .i32⟩
  | .local _ .vmem, ⟨26, _⟩ => ⟨S2000x1, .i32⟩
  | .local _ .vmem, ⟨27, _⟩ => ⟨S1000x16, .f32⟩
  | .local _ .vmem, ⟨28, _⟩ => ⟨S1x16, .f32⟩
  | .local _ .vmem, ⟨29, _⟩ => ⟨S1x16, .f32⟩
  | .local _ .vmem, ⟨30, _⟩ => ⟨S2000x16, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S16x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x1, .i32⟩
  | .local _ .vmem, ⟨40, _⟩ => ⟨S2000x1, .i32⟩
  | .local _ .vmem, ⟨41, _⟩ => ⟨S1000x64, .f32⟩
  | .local _ .vmem, ⟨42, _⟩ => ⟨S2000x64, .f32⟩
  | .local _ .vmem, ⟨43, _⟩ => ⟨S2000x64, .f32⟩
  | .local _ .vmem, ⟨44, _⟩ => ⟨S2000x1, .i32⟩
  | .local _ .vmem, ⟨45, _⟩ => ⟨S2000x1, .i32⟩
  | .local _ .vmem, ⟨46, _⟩ => ⟨S1000x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x1, .i32⟩
  | .local _ .vmem, ⟨53, _⟩ => ⟨S2000x1, .i32⟩
  | .local _ .vmem, ⟨54, _⟩ => ⟨S1000x64, .f32⟩
  | .local _ .vmem, ⟨55, _⟩ => ⟨S2000x64, .f32⟩
  | .local _ .vmem, ⟨56, _⟩ => ⟨S2000x64, .f32⟩
  | .local _ .vmem, ⟨57, _⟩ => ⟨S2000x1, .i32⟩
  | .local _ .vmem, ⟨58, _⟩ => ⟨S2000x1, .i32⟩
  | .local _ .vmem, ⟨59, _⟩ => ⟨S1000x64, .f32⟩
  | .local _ .vmem, ⟨60, _⟩ => ⟨S1x64, .f32⟩
  | .local _ .vmem, ⟨61, _⟩ => ⟨S1x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S64x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x1, .i32⟩
  | .local _ .vmem, ⟨72, _⟩ => ⟨S2000x1, .i32⟩
  | .local _ .vmem, ⟨73, _⟩ => ⟨S1000x64, .f32⟩
  | .local _ .vmem, ⟨74, _⟩ => ⟨S2000x64, .f32⟩
  | .local _ .vmem, ⟨75, _⟩ => ⟨S2000x64, .f32⟩
  | .local _ .vmem, ⟨76, _⟩ => ⟨S2000x1, .i32⟩
  | .local _ .vmem, ⟨77, _⟩ => ⟨S2000x1, .i32⟩
  | .local _ .vmem, ⟨78, _⟩ => ⟨S1000x64, .f32⟩
  | .local _ .vmem, ⟨79, _⟩ => ⟨S1x64, .f32⟩
  | .local _ .vmem, ⟨80, _⟩ => ⟨S2000x64, .f32⟩
  | .local _ .vmem, ⟨81, _⟩ => ⟨S2000x64, .f32⟩
  | .local _ .vmem, ⟨82, _⟩ => ⟨S2000x64, .f32⟩
  | .local _ .vmem, ⟨83, _⟩ => ⟨S2000x64, .f32⟩
  | .local _ .vmem, ⟨84, _⟩ => ⟨S2000x1, .i32⟩
  | .local _ .vmem, ⟨85, _⟩ => ⟨S2000x1, .i32⟩
  | .local _ .vmem, ⟨86, _⟩ => ⟨S1000x64, .f32⟩
  | .local _ .vmem, ⟨87, _⟩ => ⟨S2000x64, .f32⟩
  | .local _ .vmem, ⟨88, _⟩ => ⟨S2000x64, .f32⟩
  | .local _ .vmem, ⟨89, _⟩ => ⟨S2000x1, .i32⟩
  | .local _ .vmem, ⟨90, _⟩ => ⟨S2000x1, .i32⟩
  | .local _ .vmem, ⟨91, _⟩ => ⟨S1000x64, .f32⟩
  | .local _ .vmem, ⟨92, _⟩ => ⟨S1x64, .f32⟩
  | .local _ .vmem, ⟨93, _⟩ => ⟨S1x64, .f32⟩
  | .local _ .vmem, ⟨94, _⟩ => ⟨S2000x64, .f32⟩
  | .local _ .vmem, ⟨95, _⟩ => ⟨S2000x64, .f32⟩
  | .local _ .vmem, ⟨96, _⟩ => ⟨S2000x64, .f32⟩
  | .local _ .vmem, ⟨97, _⟩ => ⟨S2000x64, .f32⟩
  | .local _ .vmem, ⟨98, _⟩ => ⟨S64x64, .f32⟩
  | .local _ .vmem, ⟨99, _⟩ => ⟨S2000x64, .f32⟩
  | .local _ .vmem, ⟨100, _⟩ => ⟨S2000x64, .f32⟩
  | .local _ .vmem, ⟨101, _⟩ => ⟨S2000x64, .f32⟩
  | .local _ .vmem, ⟨102, _⟩ => ⟨S2000x64, .f32⟩
  | .local _ .vmem, ⟨103, _⟩ => ⟨S2000x1, .i32⟩
  | .local _ .vmem, ⟨104, _⟩ => ⟨S2000x1, .i32⟩
  | .local _ .vmem, ⟨105, _⟩ => ⟨S1000x64, .f32⟩
  | .local _ .vmem, ⟨106, _⟩ => ⟨S1000x64, .f32⟩
  | .local _ .vmem, ⟨107, _⟩ => ⟨S64x64, .f32⟩
  | .local _ .vmem, ⟨108, _⟩ => ⟨S1x64, .f32⟩
  | .local _ .vmem, ⟨109, _⟩ => ⟨S64x2, .f32⟩
  | .local _ .vmem, ⟨110, _⟩ => ⟨S1x2, .f32⟩
  | .local _ .vmem, ⟨111, _⟩ => ⟨S1000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call0_cst : Ref sig .tc := ⟨.hbm, 98, rfl⟩
abbrev main_call0_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_10 : Ref sig .tc := ⟨.hbm, 114, rfl⟩
abbrev main_v78 : Ref sig .tc := ⟨.hbm, 115, rfl⟩
abbrev main_v79 : Ref sig .tc := ⟨.hbm, 116, rfl⟩
abbrev main_c_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_12 : Ref sig .tc := ⟨.hbm, 123, rfl⟩
abbrev main_v85 : Ref sig .tc := ⟨.hbm, 124, rfl⟩
abbrev main_v86 : Ref sig .tc := ⟨.hbm, 125, rfl⟩
abbrev main_c_13 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_14 : Ref sig .tc := ⟨.hbm, 132, rfl⟩
abbrev main_v92 : Ref sig .tc := ⟨.hbm, 133, rfl⟩
abbrev main_v93 : Ref sig .tc := ⟨.hbm, 134, rfl⟩
abbrev main_c_15 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_16 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call1_cst : Ref sig .tc := ⟨.hbm, 156, rfl⟩
abbrev main_call1_v0 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_17 : Ref sig .tc := ⟨.hbm, 172, rfl⟩
abbrev main_v127 : Ref sig .tc := ⟨.hbm, 173, rfl⟩
abbrev main_v128 : Ref sig .tc := ⟨.hbm, 174, rfl⟩
abbrev main_c_18 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_19 : Ref sig .tc := ⟨.hbm, 181, rfl⟩
abbrev main_v134 : Ref sig .tc := ⟨.hbm, 182, rfl⟩
abbrev main_v135 : Ref sig .tc := ⟨.hbm, 183, rfl⟩
abbrev main_c_20 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_21 : Ref sig .tc := ⟨.hbm, 190, rfl⟩
abbrev main_v141 : Ref sig .tc := ⟨.hbm, 191, rfl⟩
abbrev main_v142 : Ref sig .tc := ⟨.hbm, 192, rfl⟩
abbrev main_c_22 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_23 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_call2_cst : Ref sig .tc := ⟨.hbm, 214, rfl⟩
abbrev main_call2_v0 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg5_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg4_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg1_1 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg4_0 : Ref sig .tc := ⟨.vmem, 61, rfl⟩
abbrev cc9_stg5_0 : Ref sig .tc := ⟨.vmem, 62, rfl⟩
abbrev cc9_stg5_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg2_0 : Ref sig .tc := ⟨.vmem, 67, rfl⟩
abbrev cc10_stg2_1 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg3_0 : Ref sig .tc := ⟨.vmem, 79, rfl⟩
abbrev cc12_stg4_0 : Ref sig .tc := ⟨.vmem, 80, rfl⟩
abbrev cc12_stg4_1 : Ref sig .tc := ⟨.vmem, 81, rfl⟩
abbrev cc13_stg0_0 : Ref sig .tc := ⟨.vmem, 82, rfl⟩
abbrev cc13_stg0_1 : Ref sig .tc := ⟨.vmem, 83, rfl⟩
abbrev cc13_stg1_0 : Ref sig .tc := ⟨.vmem, 84, rfl⟩
abbrev cc13_stg1_1 : Ref sig .tc := ⟨.vmem, 85, rfl⟩
abbrev cc13_stg2_0 : Ref sig .tc := ⟨.vmem, 86, rfl⟩
abbrev cc14_stg0_0 : Ref sig .tc := ⟨.vmem, 87, rfl⟩
abbrev cc14_stg0_1 : Ref sig .tc := ⟨.vmem, 88, rfl⟩
abbrev cc14_stg1_0 : Ref sig .tc := ⟨.vmem, 89, rfl⟩
abbrev cc14_stg1_1 : Ref sig .tc := ⟨.vmem, 90, rfl⟩
abbrev cc14_stg2_0 : Ref sig .tc := ⟨.vmem, 91, rfl⟩
abbrev cc14_stg3_0 : Ref sig .tc := ⟨.vmem, 92, rfl⟩
abbrev cc14_stg4_0 : Ref sig .tc := ⟨.vmem, 93, rfl⟩
abbrev cc14_stg5_0 : Ref sig .tc := ⟨.vmem, 94, rfl⟩
abbrev cc14_stg5_1 : Ref sig .tc := ⟨.vmem, 95, rfl⟩
abbrev cc15_stg0_0 : Ref sig .tc := ⟨.vmem, 96, rfl⟩
abbrev cc15_stg0_1 : Ref sig .tc := ⟨.vmem, 97, rfl⟩
abbrev cc15_stg1_0 : Ref sig .tc := ⟨.vmem, 98, rfl⟩
abbrev cc15_stg2_0 : Ref sig .tc := ⟨.vmem, 99, rfl⟩
abbrev cc15_stg2_1 : Ref sig .tc := ⟨.vmem, 100, rfl⟩
abbrev cc16_stg0_0 : Ref sig .tc := ⟨.vmem, 101, rfl⟩
abbrev cc16_stg0_1 : Ref sig .tc := ⟨.vmem, 102, rfl⟩
abbrev cc16_stg1_0 : Ref sig .tc := ⟨.vmem, 103, rfl⟩
abbrev cc16_stg1_1 : Ref sig .tc := ⟨.vmem, 104, rfl⟩
abbrev cc16_stg2_0 : Ref sig .tc := ⟨.vmem, 105, rfl⟩
abbrev cc17_stg0_0 : Ref sig .tc := ⟨.vmem, 106, rfl⟩
abbrev cc17_stg1_0 : Ref sig .tc := ⟨.vmem, 107, rfl⟩
abbrev cc17_stg2_0 : Ref sig .tc := ⟨.vmem, 108, rfl⟩
abbrev cc17_stg3_0 : Ref sig .tc := ⟨.vmem, 109, rfl⟩
abbrev cc17_stg4_0 : Ref sig .tc := ⟨.vmem, 110, rfl⟩
abbrev cc17_stg5_0 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem5_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem3_0 : DmaSem sig := 47
abbrev cc7_sem4_0 : DmaSem sig := 48
abbrev cc7_sem4_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc9_sem0_0 : DmaSem sig := 55
abbrev cc9_sem0_1 : DmaSem sig := 56
abbrev cc9_sem1_0 : DmaSem sig := 57
abbrev cc9_sem1_1 : DmaSem sig := 58
abbrev cc9_sem2_0 : DmaSem sig := 59
abbrev cc9_sem3_0 : DmaSem sig := 60
abbrev cc9_sem4_0 : DmaSem sig := 61
abbrev cc9_sem5_0 : DmaSem sig := 62
abbrev cc9_sem5_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem2_1 : DmaSem sig := 68
abbrev cc11_sem0_0 : DmaSem sig := 69
abbrev cc11_sem0_1 : DmaSem sig := 70
abbrev cc11_sem1_0 : DmaSem sig := 71
abbrev cc11_sem1_1 : DmaSem sig := 72
abbrev cc11_sem2_0 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem3_0 : DmaSem sig := 79
abbrev cc12_sem4_0 : DmaSem sig := 80
abbrev cc12_sem4_1 : DmaSem sig := 81
abbrev cc13_sem0_0 : DmaSem sig := 82
abbrev cc13_sem0_1 : DmaSem sig := 83
abbrev cc13_sem1_0 : DmaSem sig := 84
abbrev cc13_sem1_1 : DmaSem sig := 85
abbrev cc13_sem2_0 : DmaSem sig := 86
abbrev cc14_sem0_0 : DmaSem sig := 87
abbrev cc14_sem0_1 : DmaSem sig := 88
abbrev cc14_sem1_0 : DmaSem sig := 89
abbrev cc14_sem1_1 : DmaSem sig := 90
abbrev cc14_sem2_0 : DmaSem sig := 91
abbrev cc14_sem3_0 : DmaSem sig := 92
abbrev cc14_sem4_0 : DmaSem sig := 93
abbrev cc14_sem5_0 : DmaSem sig := 94
abbrev cc14_sem5_1 : DmaSem sig := 95
abbrev cc15_sem0_0 : DmaSem sig := 96
abbrev cc15_sem0_1 : DmaSem sig := 97
abbrev cc15_sem1_0 : DmaSem sig := 98
abbrev cc15_sem2_0 : DmaSem sig := 99
abbrev cc15_sem2_1 : DmaSem sig := 100
abbrev cc16_sem0_0 : DmaSem sig := 101
abbrev cc16_sem0_1 : DmaSem sig := 102
abbrev cc16_sem1_0 : DmaSem sig := 103
abbrev cc16_sem1_1 : DmaSem sig := 104
abbrev cc16_sem2_0 : DmaSem sig := 105
abbrev cc17_sem0_0 : DmaSem sig := 106
abbrev cc17_sem1_0 : DmaSem sig := 107
abbrev cc17_sem2_0 : DmaSem sig := 108
abbrev cc17_sem3_0 : DmaSem sig := 109
abbrev cc17_sem4_0 : DmaSem sig := 110
abbrev cc17_sem5_0 : DmaSem sig := 111

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1000x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1000x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1000x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1000x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1000x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1000x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1000x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1000x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1000x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1000x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x1 .i32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1000x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S2000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S2000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x1 .i32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1000x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 1 → Memref sig .tc .vmem S1000x64 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![false]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S64x2 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x2 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1000x2 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S100000x1 : S_.BroadcastsInDim S100000x1 (![] : Fin 0 → Fin S100000x1.rank)
  inb_S1000x1_S1000x1_0_0 : ∀ a, (![0, 0] : Fin 2 → Nat) a + S1000x1.size a ≤ S1000x1.size a
  h_S1000x1 : 0 < S1000x1.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1000_d1_w32 : S2000x1000.Iotas .tc 32 [1]
  broadcasts_S2000x1_S2000x1000 : S2000x1.Broadcasts S2000x1000
  natLt_1_32 : 1 < 32
  bitsLt_bf16_f32 : FTy.bits .bf16 < FTy.bits .f32
  shapeCasts_S1000x1_S1000x1 : S1000x1.ShapeCasts S1000x1
  bcast_S_S1000x1 : S_.BroadcastsInDim S1000x1 (![] : Fin 0 → Fin S1000x1.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S16_S1x16 : S16.ShapeCasts S1x16
  inb_S1000x16_S1000x16_0_0 : ∀ a, (![0, 0] : Fin 2 → Nat) a + S1000x16.size a ≤ S1000x16.size a
  h_S1000x16 : 0 < S1000x16.numel
  inb_S2000x16_S2000x16_0_0 : ∀ a, (![0, 0] : Fin 2 → Nat) a + S2000x16.size a ≤ S2000x16.size a
  h_S2000x16 : 0 < S2000x16.numel
  shapeCasts_S1000x16_S1000x16 : S1000x16.ShapeCasts S1000x16
  bcast_S1000x1_S1000x16_0_1 : S1000x1.BroadcastsInDim S1000x16 (![0, 1] : Fin 2 → Fin S1000x16.rank)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  inb_S1000x64_S1000x64_0_0 : ∀ a, (![0, 0] : Fin 2 → Nat) a + S1000x64.size a ≤ S1000x64.size a
  h_S1000x64 : 0 < S1000x64.numel
  shapeCasts_S2000x64_S2000x64 : S2000x64.ShapeCasts S2000x64
  shapeCasts_S1000x64_S1000x64 : S1000x64.ShapeCasts S1000x64
  bcast_S1000x1_S1000x64_0_1 : S1000x1.BroadcastsInDim S1000x64 (![0, 1] : Fin 2 → Fin S1000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S2_S1x2 : S2.ShapeCasts S1x2
  broadcasts_S1x64_S1000x64 : S1x64.Broadcasts S1000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  shapeCasts_S1000_S1000x1 : S1000.ShapeCasts S1000x1
  broadcasts_S1000x1_S1000x2 : S1000x1.Broadcasts S1000x2
  inb_S1000x2_S1000x2_0_0 : ∀ a, (![0, 0] : Fin 2 → Nat) a + S1000x2.size a ≤ S1000x2.size a
  h_S1000x2 : 0 < S1000x2.numel
  dot_S2000x1000_S2000x1_S1000x1_0_0_1_1_n_n_wf : DotDims.WF S2000x1000 S2000x1 S1000x1 [0] [0] [1] [1] [] []
  scatter_S100000_S1600000x1_S1600000_n_0_0_1_wf : ScatterDims.WF S100000 S1600000x1 S1600000 [] [0] [0] 1
  dot_S2000x1000_S2000x16_S1000x16_0_0_1_1_n_n_wf : DotDims.WF S2000x1000 S2000x16 S1000x16 [0] [0] [1] [1] [] []
  dot_S2000x1000_S1000x16_S2000x16_1_0_0_1_n_n_wf : DotDims.WF S2000x1000 S1000x16 S2000x16 [1] [0] [0] [1] [] []
  dot_S2000x16_S16x64_S2000x64_1_0_0_1_n_n_wf : DotDims.WF S2000x16 S16x64 S2000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S2000x1000_S2000x64_S1000x64_0_0_1_1_n_n_wf : DotDims.WF S2000x1000 S2000x64 S1000x64 [0] [0] [1] [1] [] []
  dot_S2000x1000_S1000x64_S2000x64_1_0_0_1_n_n_wf : DotDims.WF S2000x1000 S1000x64 S2000x64 [1] [0] [0] [1] [] []
  dot_S2000x64_S64x64_S2000x64_1_0_0_1_n_n_wf : DotDims.WF S2000x64 S64x64 S2000x64 [1] [0] [0] [1] [] []
  dot_S1000x64_S64x64_S1000x64_1_0_0_1_n_n_wf : DotDims.WF S1000x64 S64x64 S1000x64 [1] [0] [0] [1] [] []
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .i32 = 32 ∨ (Rect.block (s := S100000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x16.size a ≤ S1000x16.size a
  hwx1_2 : ∀ i : grid1.Coords, EltTy.bits .f32 = 32 ∨ (Rect.block (s := S1000x16) S1000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000x16.size a ≤ S1000x16.size a
  hwx2_2 : ∀ i : grid2.Coords, EltTy.bits .f32 = 32 ∨ (Rect.block (s := S1000x16) S1000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x16.size a ≤ S100000x16.size a
  hwx2_4 : ∀ i : grid2.Coords, EltTy.bits .f32 = 32 ∨ (Rect.block (s := S100000x16) S2000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1000x16.size a ≤ S1000x16.size a
  hwx3_2 : ∀ i : grid3.Coords, EltTy.bits .f32 = 32 ∨ (Rect.block (s := S1000x16) S1000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S100000x16.size a
  hwx4_0 : ∀ i : grid4.Coords, EltTy.bits .f32 = 32 ∨ (Rect.block (s := S100000x16) S2000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1000x16.size a ≤ S1000x16.size a
  hwx4_2 : ∀ i : grid4.Coords, EltTy.bits .f32 = 32 ∨ (Rect.block (s := S1000x16) S1000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x16.size a ≤ S100000x16.size a
  hwx4_5 : ∀ i : grid4.Coords, EltTy.bits .f32 = 32 ∨ (Rect.block (s := S100000x16) S2000x16.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S100000x16.size a
  hwx5_0 : ∀ i : grid5.Coords, EltTy.bits .f32 = 32 ∨ (Rect.block (s := S100000x16) S2000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x64.size a ≤ S16x64.size a
  hwx5_1 : ∀ i : grid5.Coords, EltTy.bits .f32 = 32 ∨ (Rect.block (s := S16x64) S16x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1000x64.size a ≤ S1000x64.size a
  hwx6_2 : ∀ i : grid6.Coords, EltTy.bits .f32 = 32 ∨ (Rect.block (s := S1000x64) S1000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .i32 = 32 ∨ (Rect.block (s := S100000x1) S2000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1000x64.size a ≤ S1000x64.size a
  hwx7_2 : ∀ i : grid7.Coords, EltTy.bits .f32 = 32 ∨ (Rect.block (s := S1000x64) S1000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S100000x64.size a
  hwx7_4 : ∀ i : grid7.Coords, EltTy.bits .f32 = 32 ∨ (Rect.block (s := S100000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .i32 = 32 ∨ (Rect.block (s := S100000x1) S2000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1000x64.size a ≤ S1000x64.size a
  hwx8_2 : ∀ i : grid8.Coords, EltTy.bits .f32 = 32 ∨ (Rect.block (s := S1000x64) S1000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S100000x64.size a
  hwx9_0 : ∀ i : grid9.Coords, EltTy.bits .f32 = 32 ∨ (Rect.block (s := S100000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S100000x1.size a
  hwx9_1 : ∀ i : grid9.Coords, EltTy.bits .i32 = 32 ∨ (Rect.block (s := S100000x1) S2000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1000x64.size a ≤ S1000x64.size a
  hwx9_2 : ∀ i : grid9.Coords, EltTy.bits .f32 = 32 ∨ (Rect.block (s := S1000x64) S1000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x64.size a ≤ S100000x64.size a
  hwx9_5 : ∀ i : grid9.Coords, EltTy.bits .f32 = 32 ∨ (Rect.block (s := S100000x64) S2000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S100000x64.size a
  hwx10_0 : ∀ i : grid10.Coords, EltTy.bits .f32 = 32 ∨ (Rect.block (s := S100000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S100000x64.size a
  hwx10_2 : ∀ i : grid10.Coords, EltTy.bits .f32 = 32 ∨ (Rect.block (s := S100000x64) S2000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S100000x64.size a
  hwx11_0 : ∀ i : grid11.Coords, EltTy.bits .f32 = 32 ∨ (Rect.block (s := S100000x64) S2000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x1.size a ≤ S100000x1.size a
  hwx11_1 : ∀ i : grid11.Coords, EltTy.bits .i32 = 32 ∨ (Rect.block (s := S100000x1) S2000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1000x64.size a ≤ S1000x64.size a
  hwx11_2 : ∀ i : grid11.Coords, EltTy.bits .f32 = 32 ∨ (Rect.block (s := S1000x64) S1000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S100000x64.size a
  hwx12_0 : ∀ i : grid12.Coords, EltTy.bits .f32 = 32 ∨ (Rect.block (s := S100000x64) S2000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S100000x1.size a
  hwx12_1 : ∀ i : grid12.Coords, EltTy.bits .i32 = 32 ∨ (Rect.block (s := S100000x1) S2000x1.size (cc12_transform_1 i) (hinb12_1 i)).WholeWords (EltTy.packing .i32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1000x64.size a ≤ S1000x64.size a
  hwx12_2 : ∀ i : grid12.Coords, EltTy.bits .f32 = 32 ∨ (Rect.block (s := S1000x64) S1000x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x64.size a ≤ S100000x64.size a
  hwx12_4 : ∀ i : grid12.Coords, EltTy.bits .f32 = 32 ∨ (Rect.block (s := S100000x64) S2000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S100000x64.size a
  hwx13_0 : ∀ i : grid13.Coords, EltTy.bits .f32 = 32 ∨ (Rect.block (s := S100000x64) S2000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x1.size a ≤ S100000x1.size a
  hwx13_1 : ∀ i : grid13.Coords, EltTy.bits .i32 = 32 ∨ (Rect.block (s := S100000x1) S2000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1000x64.size a ≤ S1000x64.size a
  hwx13_2 : ∀ i : grid13.Coords, EltTy.bits .f32 = 32 ∨ (Rect.block (s := S1000x64) S1000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x64.size a ≤ S100000x64.size a
  hwx14_0 : ∀ i : grid14.Coords, EltTy.bits .f32 = 32 ∨ (Rect.block (s := S100000x64) S2000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x1.size a ≤ S100000x1.size a
  hwx14_1 : ∀ i : grid14.Coords, EltTy.bits .i32 = 32 ∨ (Rect.block (s := S100000x1) S2000x1.size (cc14_transform_1 i) (hinb14_1 i)).WholeWords (EltTy.packing .i32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1000x64.size a ≤ S1000x64.size a
  hwx14_2 : ∀ i : grid14.Coords, EltTy.bits .f32 = 32 ∨ (Rect.block (s := S1000x64) S1000x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x64.size a ≤ S100000x64.size a
  hwx14_5 : ∀ i : grid14.Coords, EltTy.bits .f32 = 32 ∨ (Rect.block (s := S100000x64) S2000x64.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x64.size a ≤ S100000x64.size a
  hwx15_0 : ∀ i : grid15.Coords, EltTy.bits .f32 = 32 ∨ (Rect.block (s := S100000x64) S2000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x64.size a ≤ S100000x64.size a
  hwx15_2 : ∀ i : grid15.Coords, EltTy.bits .f32 = 32 ∨ (Rect.block (s := S100000x64) S2000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x64.size a ≤ S100000x64.size a
  hwx16_0 : ∀ i : grid16.Coords, EltTy.bits .f32 = 32 ∨ (Rect.block (s := S100000x64) S2000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x1.size a ≤ S100000x1.size a
  hwx16_1 : ∀ i : grid16.Coords, EltTy.bits .i32 = 32 ∨ (Rect.block (s := S100000x1) S2000x1.size (cc16_transform_1 i) (hinb16_1 i)).WholeWords (EltTy.packing .i32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1000x64.size a ≤ S1000x64.size a
  hwx16_2 : ∀ i : grid16.Coords, EltTy.bits .f32 = 32 ∨ (Rect.block (s := S1000x64) S1000x64.size (cc16_transform_2 i) (hinb16_2 i)).WholeWords (EltTy.packing .f32)
  hrank17 : 0 < grid17.rank
  hstage17_0 : ∀ j, (stage17_0 j).IsWhole
  nbuf17_0 : grid17.bufCount reads17_0 true = 1
  hreads17_0 : ∀ i i' : grid17.Coords, (∀ a, reads17_0 a = true → i a = i' a) → cc17_transform_0 i = cc17_transform_0 i'
  hinb17_0 : ∀ (i : grid17.Coords) a, (cc17_transform_0 i a + 1) * S1000x64.size a ≤ S1000x64.size a
  hwx17_0 : ∀ i : grid17.Coords, EltTy.bits .f32 = 32 ∨ (Rect.block (s := S1000x64) S1000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S64x2.size a ≤ S64x2.size a
  hwx17_3 : ∀ i : grid17.Coords, EltTy.bits .f32 = 32 ∨ (Rect.block (s := S64x2) S64x2.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x2.size a ≤ S1x2.size a
  hwx17_4 : ∀ i : grid17.Coords, EltTy.bits .f32 = 32 ∨ (Rect.block (s := S1x2) S1x2.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1000x2.size a ≤ S1000x2.size a
  hwx17_5 : ∀ i : grid17.Coords, EltTy.bits .f32 = 32 ∨ (Rect.block (s := S1000x2) S1000x2.size (cc17_transform_5 i) (hinb17_5 i)).WholeWords (EltTy.packing .f32)

variable [Facts₀]

def dot_S2000x1000_S2000x1_S1000x1_0_0_1_1_n_n : DotDims S2000x1000 S2000x1 S1000x1 where
  lhsContracting := [0]
  rhsContracting := [0]
  lhsNonContracting := [1]
  rhsNonContracting := [1]
  lhsBatch := []
  rhsBatch := []
  wf := dot_S2000x1000_S2000x1_S1000x1_0_0_1_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x1000_S2000x16_S1000x16_0_0_1_1_n_n : DotDims S2000x1000 S2000x16 S1000x16 where
  lhsContracting := [0]
  rhsContracting := [0]
  lhsNonContracting := [1]
  rhsNonContracting := [1]
  lhsBatch := []
  rhsBatch := []
  wf := dot_S2000x1000_S2000x16_S1000x16_0_0_1_1_n_n_wf
def dot_S2000x1000_S1000x16_S2000x16_1_0_0_1_n_n : DotDims S2000x1000 S1000x16 S2000x16 where
  lhsContracting := [1]
  rhsContracting := [0]
  lhsNonContracting := [0]
  rhsNonContracting := [1]
  lhsBatch := []
  rhsBatch := []
  wf := dot_S2000x1000_S1000x16_S2000x16_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x1000_S2000x64_S1000x64_0_0_1_1_n_n : DotDims S2000x1000 S2000x64 S1000x64 where
  lhsContracting := [0]
  rhsContracting := [0]
  lhsNonContracting := [1]
  rhsNonContracting := [1]
  lhsBatch := []
  rhsBatch := []
  wf := dot_S2000x1000_S2000x64_S1000x64_0_0_1_1_n_n_wf
def dot_S2000x1000_S1000x64_S2000x64_1_0_0_1_n_n : DotDims S2000x1000 S1000x64 S2000x64 where
  lhsContracting := [1]
  rhsContracting := [0]
  lhsNonContracting := [0]
  rhsNonContracting := [1]
  lhsBatch := []
  rhsBatch := []
  wf := dot_S2000x1000_S1000x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_v5) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1000x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1000x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1000x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S2000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1000x16.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v22) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1000x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v17) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27) S2000x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v27) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S16x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v64) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68) S1000x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v64) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v4) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1000x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v71) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v72) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v4) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v73) S1000x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v71) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v4) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v75) S1000x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v65) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v66) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v76) S2000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v76) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg11) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v77) S2000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v113) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v4) S2000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v117) S1000x64.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v113) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v4) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v119) S1000x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v116) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v120) S2000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v121) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v4) S2000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v122) S1000x64.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v120) S2000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v4) S2000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v124) S1000x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v114) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v115) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v125) S2000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v125) S2000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg16) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v126) S2000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v162) S2000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v4) S2000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v163) S1000x64.size cc16_transform_2 reads16_2 true true 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v165) S1000x64.size cc17_transform_0 reads17_0 false true 1 stage17_0 sem17_0
    hrank17 hreads17_0 hinb17_0 nbuf17_0 (Memref.isWhole_whole _) hwx17_0 hstage17_0

abbrev win17_1 : Pipeline.Window sig grid17 :=
  Pipeline.Window.ofSpec (Memref.whole main_arg18) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v166) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_arg20) S64x2.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v167) S1x2.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v168) S1000x2.size cc17_transform_5 reads17_5 true true 1 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16 : Shape := ⟨1, ![16]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1000 : Shape := ⟨1, ![1000]⟩
abbrev S100000x1 : Shape := ⟨2, ![100000, 1]⟩
abbrev S1000x1 : Shape := ⟨2, ![1000, 1]⟩
abbrev S1000x16 : Shape := ⟨2, ![1000, 16]⟩
abbrev S1x16 : Shape := ⟨2, ![1, 16]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S1000x64 : Shape := ⟨2, ![1000, 64]⟩
abbrev S1000x2 : Shape := ⟨2, ![1000, 2]⟩
abbrev S1x2 : Shape := ⟨2, ![1, 2]⟩

abbrev nBuf : Space → Nat
  | .hbm => 403
  | .vmem => 0
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16, .f32⟩
  | 4 => ⟨S16, .f32⟩
  | 5 => ⟨S16, .f32⟩
  | 6 => ⟨S16x64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64x2, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S100000, .f32⟩
  | 28 => ⟨S_, .f32⟩
  | 29 => ⟨S1000, .f32⟩
  | 30 => ⟨S100000x1, .i32⟩
  | 31 => ⟨S1000, .f32⟩
  | 32 => ⟨S_, .f32⟩
  | 33 => ⟨S1000, .f32⟩
  | 34 => ⟨S1000, .f32⟩
  | 35 => ⟨S1000x1, .f32⟩
  | 36 => ⟨S_, .f32⟩
  | 37 => ⟨S1000x16, .f32⟩
  | 38 => ⟨S100000x1, .i32⟩
  | 39 => ⟨S1000x16, .f32⟩
  | 40 => ⟨S1000x16, .f32⟩
  | 41 => ⟨S1000x16, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x16, .f32⟩
  | 51 => ⟨S1x16, .f32⟩
  | 52 => ⟨S100000x16, .f32⟩
  | 53 => ⟨S100000x16, .f32⟩
  | 54 => ⟨S100000x16, .f32⟩
  | 55 => ⟨S100000x16, .f32⟩
  | 56 => ⟨S_, .f32⟩
  | 57 => ⟨S1000x16, .f32⟩
  | 58 => ⟨S100000x1, .i32⟩
  | 59 => ⟨S1000x16, .f32⟩
  | 60 => ⟨S1000x16, .f32⟩
  | 61 => ⟨S1000x16, .f32⟩
  | 62 => ⟨S_, .f32⟩
  | 63 => ⟨S1000x16, .f32⟩
  | 64 => ⟨S1000x16, .f32⟩
  | 65 => ⟨S1000x16, .f32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x16, .f32⟩
  | 75 => ⟨S100000x16, .f32⟩
  | 76 => ⟨S1x16, .f32⟩
  | 77 => ⟨S100000x16, .f32⟩
  | 78 => ⟨S100000x16, .f32⟩
  | 79 => ⟨S1x16, .f32⟩
  | 80 => ⟨S100000x16, .f32⟩
  | 81 => ⟨S100000x16, .f32⟩
  | 82 => ⟨S100000x64, .f32⟩
  | 83 => ⟨S_, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S100000, .f32⟩
  | 91 => ⟨S100000, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x16, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000, .f32⟩
  | 12 => ⟨S_, .f32⟩
  | 13 => ⟨S1000, .f32⟩
  | 14 => ⟨S100000x1, .i32⟩
  | 15 => ⟨S1000, .f32⟩
  | 16 => ⟨S_, .f32⟩
  | 17 => ⟨S1000, .f32⟩
  | 18 => ⟨S1000, .f32⟩
  | 19 => ⟨S1000x1, .f32⟩
  | 20 => ⟨S_, .f32⟩
  | 21 => ⟨S1000x64, .f32⟩
  | 22 => ⟨S100000x1, .i32⟩
  | 23 => ⟨S1000x64, .f32⟩
  | 24 => ⟨S1000x64, .f32⟩
  | 25 => ⟨S1000x64, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x64, .f32⟩
  | 35 => ⟨S1x64, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S1000x64, .f32⟩
  | 42 => ⟨S100000x1, .i32⟩
  | 43 => ⟨S1000x64, .f32⟩
  | 44 => ⟨S1000x64, .f32⟩
  | 45 => ⟨S1000x64, .f32⟩
  | 46 => ⟨S_, .f32⟩
  | 47 => ⟨S1000x64, .f32⟩
  | 48 => ⟨S1000x64, .f32⟩
  | 49 => ⟨S1000x64, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S1600000x1, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x1, .f32⟩
  | 113 => ⟨S100000x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S100000, .f32⟩
  | 124 => ⟨S_, .f32⟩
  | 125 => ⟨S1000, .f32⟩
  | 126 => ⟨S100000x1, .i32⟩
  | 127 => ⟨S1000, .f32⟩
  | _ => ⟨S100000x16, .f32⟩

abbrev hbmTy0_2 (i : Nat) : BufTy := match i % 128 with
  | 0 => ⟨S_, .f32⟩
  | 1 => ⟨S1000, .f32⟩
  | 2 => ⟨S1000, .f32⟩
  | 3 => ⟨S1000x1, .f32⟩
  | 4 => ⟨S_, .f32⟩
  | 5 => ⟨S1000x64, .f32⟩
  | 6 => ⟨S100000x1, .i32⟩
  | 7 => ⟨S1000x64, .f32⟩
  | 8 => ⟨S1000x64, .f32⟩
  | 9 => ⟨S1000x64, .f32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S100000x64, .f32⟩
  | 24 => ⟨S_, .f32⟩
  | 25 => ⟨S1000x64, .f32⟩
  | 26 => ⟨S100000x1, .i32⟩
  | 27 => ⟨S1000x64, .f32⟩
  | 28 => ⟨S1000x64, .f32⟩
  | 29 => ⟨S1000x64, .f32⟩
  | 30 => ⟨S_, .f32⟩
  | 31 => ⟨S1000x64, .f32⟩
  | 32 => ⟨S1000x64, .f32⟩
  | 33 => ⟨S1000x64, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S1600000, .f32⟩
  | 53 => ⟨S_, .f32⟩
  | 54 => ⟨S100000, .f32⟩
  | 55 => ⟨S1600000x1, .i32⟩
  | 56 => ⟨S100000, .f32⟩
  | 57 => ⟨S_, .f32⟩
  | 58 => ⟨S100000, .f32⟩
  | 59 => ⟨S100000, .f32⟩
  | 60 => ⟨S100000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S1600000x1, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x1, .f32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S_, .f32⟩
  | 107 => ⟨S100000, .f32⟩
  | 108 => ⟨S_, .f32⟩
  | 109 => ⟨S1000, .f32⟩
  | 110 => ⟨S100000x1, .i32⟩
  | 111 => ⟨S1000, .f32⟩
  | 112 => ⟨S_, .f32⟩
  | 113 => ⟨S1000, .f32⟩
  | 114 => ⟨S1000, .f32⟩
  | 115 => ⟨S_, .f32⟩
  | 116 => ⟨S1000x64, .f32⟩
  | 117 => ⟨S100000x1, .i32⟩
  | 118 => ⟨S1000x64, .f32⟩
  | 119 => ⟨S1000x1, .f32⟩
  | 120 => ⟨S1000x64, .f32⟩
  | 121 => ⟨S1000x64, .f32⟩
  | 122 => ⟨S1000x64, .f32⟩
  | 123 => ⟨S1x64, .f32⟩
  | 124 => ⟨S1000x64, .f32⟩
  | 125 => ⟨S1000x64, .f32⟩
  | 126 => ⟨S_, .f32⟩
  | 127 => ⟨S1000x64, .f32⟩
  | _ => ⟨S100000x16, .f32⟩

abbrev hbmTy0_3 (i : Nat) : BufTy := match i % 128 with
  | 0 => ⟨S1000x64, .f32⟩
  | 1 => ⟨S1000x2, .f32⟩
  | 2 => ⟨S1x2, .f32⟩
  | 3 => ⟨S1000x2, .f32⟩
  | 4 => ⟨S1000x2, .f32⟩
  | 5 => ⟨S_, .f32⟩
  | 6 => ⟨S1000, .f32⟩
  | 7 => ⟨S_, .f32⟩
  | 8 => ⟨S1000, .f32⟩
  | 9 => ⟨S1000, .f32⟩
  | 10 => ⟨S1000x1, .f32⟩
  | 11 => ⟨S1000x2, .f32⟩
  | 12 => ⟨S1000x2, .f32⟩
  | 13 => ⟨S1000x2, .f32⟩
  | 14 => ⟨S_, .f32⟩
  | 15 => ⟨S1000, .f32⟩
  | 16 => ⟨S1000x1, .f32⟩
  | 17 => ⟨S1000x2, .f32⟩
  | 18 => ⟨S1000x2, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_c_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call0_cst : Ref sig .tc := ⟨.hbm, 135, rfl⟩
abbrev main_call0_v0 : Ref sig .tc := ⟨.hbm, 136, rfl⟩
abbrev main_v93 : Ref sig .tc := ⟨.hbm, 137, rfl⟩
abbrev main_cst_18 : Ref sig .tc := ⟨.hbm, 138, rfl⟩
abbrev main_v94 : Ref sig .tc := ⟨.hbm, 139, rfl⟩
abbrev main_cst_19 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_20 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_21 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_22 : Ref sig .tc := ⟨.hbm, 154, rfl⟩
abbrev main_v106 : Ref sig .tc := ⟨.hbm, 155, rfl⟩
abbrev main_v107 : Ref sig .tc := ⟨.hbm, 156, rfl⟩
abbrev main_c_23 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_24 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_25 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_26 : Ref sig .tc := ⟨.hbm, 178, rfl⟩
abbrev main_v126 : Ref sig .tc := ⟨.hbm, 179, rfl⟩
abbrev main_v127 : Ref sig .tc := ⟨.hbm, 180, rfl⟩
abbrev main_c_27 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_28 : Ref sig .tc := ⟨.hbm, 195, rfl⟩
abbrev main_v141 : Ref sig .tc := ⟨.hbm, 196, rfl⟩
abbrev main_cst_29 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_30 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_c_31 : Ref sig .tc := ⟨.hbm, 205, rfl⟩
abbrev main_v148 : Ref sig .tc := ⟨.hbm, 206, rfl⟩
abbrev main_v149 : Ref sig .tc := ⟨.hbm, 207, rfl⟩
abbrev main_c_32 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_c_33 : Ref sig .tc := ⟨.hbm, 214, rfl⟩
abbrev main_v155 : Ref sig .tc := ⟨.hbm, 215, rfl⟩
abbrev main_v156 : Ref sig .tc := ⟨.hbm, 216, rfl⟩
abbrev main_c_34 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_c_35 : Ref sig .tc := ⟨.hbm, 223, rfl⟩
abbrev main_v162 : Ref sig .tc := ⟨.hbm, 224, rfl⟩
abbrev main_v163 : Ref sig .tc := ⟨.hbm, 225, rfl⟩
abbrev main_c_36 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_37 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_call1_cst : Ref sig .tc := ⟨.hbm, 247, rfl⟩
abbrev main_call1_v0 : Ref sig .tc := ⟨.hbm, 248, rfl⟩
abbrev main_v183 : Ref sig .tc := ⟨.hbm, 249, rfl⟩
abbrev main_cst_38 : Ref sig .tc := ⟨.hbm, 250, rfl⟩
abbrev main_v184 : Ref sig .tc := ⟨.hbm, 251, rfl⟩
abbrev main_cst_39 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_40 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_41 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_c_42 : Ref sig .tc := ⟨.hbm, 266, rfl⟩
abbrev main_v196 : Ref sig .tc := ⟨.hbm, 267, rfl⟩
abbrev main_v197 : Ref sig .tc := ⟨.hbm, 268, rfl⟩
abbrev main_c_43 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_44 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_cst_45 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_c_46 : Ref sig .tc := ⟨.hbm, 290, rfl⟩
abbrev main_v216 : Ref sig .tc := ⟨.hbm, 291, rfl⟩
abbrev main_v217 : Ref sig .tc := ⟨.hbm, 292, rfl⟩
abbrev main_c_47 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_cst_48 : Ref sig .tc := ⟨.hbm, 307, rfl⟩
abbrev main_v231 : Ref sig .tc := ⟨.hbm, 308, rfl⟩
abbrev main_cst_49 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_cst_50 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_c_51 : Ref sig .tc := ⟨.hbm, 317, rfl⟩
abbrev main_v238 : Ref sig .tc := ⟨.hbm, 318, rfl⟩
abbrev main_v239 : Ref sig .tc := ⟨.hbm, 319, rfl⟩
abbrev main_c_52 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_c_53 : Ref sig .tc := ⟨.hbm, 326, rfl⟩
abbrev main_v245 : Ref sig .tc := ⟨.hbm, 327, rfl⟩
abbrev main_v246 : Ref sig .tc := ⟨.hbm, 328, rfl⟩
abbrev main_c_54 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_c_55 : Ref sig .tc := ⟨.hbm, 335, rfl⟩
abbrev main_v252 : Ref sig .tc := ⟨.hbm, 336, rfl⟩
abbrev main_v253 : Ref sig .tc := ⟨.hbm, 337, rfl⟩
abbrev main_c_56 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_cst_57 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_call2_cst : Ref sig .tc := ⟨.hbm, 359, rfl⟩
abbrev main_call2_v0 : Ref sig .tc := ⟨.hbm, 360, rfl⟩
abbrev main_v273 : Ref sig .tc := ⟨.hbm, 361, rfl⟩
abbrev main_cst_58 : Ref sig .tc := ⟨.hbm, 362, rfl⟩
abbrev main_v274 : Ref sig .tc := ⟨.hbm, 363, rfl⟩
abbrev main_cst_59 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_cst_60 : Ref sig .tc := ⟨.hbm, 368, rfl⟩
abbrev main_v278 : Ref sig .tc := ⟨.hbm, 369, rfl⟩
abbrev main_v279 : Ref sig .tc := ⟨.hbm, 370, rfl⟩
abbrev main_cst_61 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_call3_cst : Ref sig .tc := ⟨.hbm, 382, rfl⟩
abbrev main_call3_v0 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_cst_62 : Ref sig .tc := ⟨.hbm, 389, rfl⟩
abbrev main_v295 : Ref sig .tc := ⟨.hbm, 390, rfl⟩
abbrev main_cst_63 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_cst_64 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1000 : S_.BroadcastsInDim S1000 (![] : Fin 0 → Fin S1000.rank)
  bcast_S100000_S100000x1_0 : S100000.BroadcastsInDim S100000x1 (![0] : Fin 1 → Fin S100000x1.rank)
  bcast_S1000_S1000x1_0 : S1000.BroadcastsInDim S1000x1 (![0] : Fin 1 → Fin S1000x1.rank)
  bcast_S_S1000x16 : S_.BroadcastsInDim S1000x16 (![] : Fin 0 → Fin S1000x16.rank)
  bcast_S1000x1_S1000x16_0_1 : S1000x1.BroadcastsInDim S1000x16 (![0, 1] : Fin 2 → Fin S1000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000x64 : S_.BroadcastsInDim S1000x64 (![] : Fin 0 → Fin S1000x64.rank)
  bcast_S1000x1_S1000x64_0_1 : S1000x1.BroadcastsInDim S1000x64 (![0, 1] : Fin 2 → Fin S1000x64.rank)
  bcast_S1x64_S1000x64_0_1 : S1x64.BroadcastsInDim S1000x64 (![0, 1] : Fin 2 → Fin S1000x64.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  reducesTo_S1000x2_S1000_d1 : S1000x2.ReducesTo [1] S1000
  h_S_ : 0 < S_.numel
  bcast_S1000x1_S1000x2_0_1 : S1000x1.BroadcastsInDim S1000x2 (![0, 1] : Fin 2 → Fin S1000x2.rank)
  scatter_S1000_S100000x1_S100000_n_0_0_1_wf : ScatterDims.WF S1000 S100000x1 S100000 [] [0] [0] 1
  scatter_S1000x16_S100000x1_S100000x16_1_0_0_1_wf : ScatterDims.WF S1000x16 S100000x1 S100000x16 [1] [0] [0] 1
  gather_S1000x16_S100000x1_S100000x16_1_0_n_n_0_1_116_wf : GatherDims.WF S1000x16 S100000x1 S100000x16 [1] [0] [] [0] [] 1 ![1, 16]
  dot_S100000x16_S16x64_S100000x64_1_0_0_1_n_n_wf : DotDims.WF S100000x16 S16x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  gather_S1000x64_S100000x1_S100000x64_1_0_n_n_0_1_164_wf : GatherDims.WF S1000x64 S100000x1 S100000x64 [1] [0] [] [0] [] 1 ![1, 64]
  dot_S100000x64_S64x64_S100000x64_1_0_0_1_n_n_wf : DotDims.WF S100000x64 S64x64 S100000x64 [1] [0] [0] [1] [] []
  dot_S1000x64_S64x64_S1000x64_1_0_0_1_n_n_wf : DotDims.WF S1000x64 S64x64 S1000x64 [1] [0] [0] [1] [] []
  dot_S1000x64_S64x2_S1000x2_1_0_0_1_n_n_wf : DotDims.WF S1000x64 S64x2 S1000x2 [1] [0] [0] [1] [] []

variable [Facts₀]

def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x16_S100000x1_S100000x16_1_0_0_1 : ScatterDims S1000x16 S100000x1 S100000x16 where
  updateWindowDims := [1]
  insertedWindowDims := [0]
  scatterDimsToOperandDims := [0]
  indexVectorDim := 1
  wf := scatter_S1000x16_S100000x1_S100000x16_1_0_0_1_wf
def gather_S1000x16_S100000x1_S100000x16_1_0_n_n_0_1_116 : GatherDims S1000x16 S100000x1 S100000x16 where
  offsetDims := [1]
  collapsedSliceDims := [0]
  operandBatchingDims := []
  startIndicesBatchingDims := []
  startIndexMap := [0]
  indexVectorDim := 1
  sliceSizes := ![1, 16]
  wf := gather_S1000x16_S100000x1_S100000x16_1_0_n_n_0_1_116_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

class Facts : Prop extends Facts₀ where

variable [Facts]
-- ==== Proof.RefOps.lean ====
import proofs.«417558_j31903017075238_1_alg».proof.Proof.Gen.ReferenceIdeal
import Idealize.ShloMosaic.Lib.StableHlo.Run

set_option maxRecDepth 8192

noncomputable section

namespace Cert.ReferenceIdeal.RunC

open Gen Idealize.ShloMosaic Idealize.ShloMosaic.StableHlo

variable {F : FTy → Type} [FloatOps F]

noncomputable abbrev opsA : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000 ]

noncomputable abbrev opsB1 : List (HloOp τ sig (Elt F)) :=
  [ nullary main_cst (constant S_ .f32 0x3F800000#32),
    unary main_cst main_v4 (broadcastInDim S100000 ![] bcast_S_S100000),
    nullary main_cst_0 (constant S_ .f32 0x00000000#32),
    unary main_cst_0 main_v5 (broadcastInDim S1000 ![] bcast_S_S1000),
    unary main_arg2 main_v6 (broadcastInDim S100000x1 ![0] bcast_S100000_S100000x1_0),
    ternary main_v5 main_v6 main_v4 main_v7 (fun x i u => Host.scatterAdd scatter_S1000_S100000x1_S100000_n_0_0_1 x i u),
    nullary main_cst_1 (constant S_ .f32 0x3F800000#32),
    unary main_cst_1 main_v8 (broadcastInDim S1000 ![] bcast_S_S1000),
    binary main_v7 main_v8 main_v9 maximumf,
    unary main_v9 main_v10 (broadcastInDim S1000x1 ![0] bcast_S1000_S1000x1_0),
    nullary main_cst_2 (constant S_ .f32 0x00000000#32),
    unary main_cst_2 main_v11 (broadcastInDim S1000x16 ![] bcast_S_S1000x16),
    unary main_arg2 main_v12 (broadcastInDim S100000x1 ![0] bcast_S100000_S100000x1_0),
    ternary main_v11 main_v12 main_arg0 main_v13 (fun x i u => Host.scatterAdd scatter_S1000x16_S100000x1_S100000x16_1_0_0_1 x i u),
    unary main_v10 main_v14 (broadcastInDim S1000x16 ![0, 1] bcast_S1000x1_S1000x16_0_1),
    binary main_v13 main_v14 main_v15 Host.divf,
    nullary main_c (constantI S_ 32 0#32),
    unary main_c main_v16 (broadcastInDim S100000 ![] bcast_S_S100000),
    binary main_arg2 main_v16 main_v17 (cmpi .slt),
    nullary main_c_3 (constantI S_ 32 1000#32),
    unary main_c_3 main_v18 (broadcastInDim S100000 ![] bcast_S_S100000),
    binary main_arg2 main_v18 main_v19 addi,
    ternary main_v17 main_v19 main_arg2 main_v20 select,
    unary main_v20 main_v21 (broadcastInDim S100000x1 ![0] bcast_S100000_S100000x1_0),
    binary main_v15 main_v21 main_v22 (fun x i => Host.gather gather_S1000x16_S100000x1_S100000x16_1_0_n_n_0_1_116 x i),
    unary main_arg5 main_v23 (broadcastInDim S1x16 ![1] bcast_S16_S1x16_1),
    unary main_v23 main_v24 (broadcastInDim S100000x16 ![0, 1] bcast_S1x16_S100000x16_0_1),
    binary main_v24 main_v22 main_v25 mulf,
    binary main_arg0 main_v25 main_v26 subf,
    binary main_v26 main_v26 main_v27 mulf,
    nullary main_cst_4 (constant S_ .f32 0x00000000#32),
    unary main_cst_4 main_v28 (broadcastInDim S1000x16 ![] bcast_S_S1000x16),
    unary main_arg2 main_v29 (broadcastInDim S100000x1 ![0] bcast_S100000_S100000x1_0),
    ternary main_v28 main_v29 main_v27 main_v30 (fun x i u => Host.scatterAdd scatter_S1000x16_S100000x1_S100000x16_1_0_0_1 x i u),
    unary main_v10 main_v31 (broadcastInDim S1000x16 ![0, 1] bcast_S1000x1_S1000x16_0_1),
    binary main_v30 main_v31 main_v32 Host.divf,
    nullary main_cst_5 (constant S_ .f32 0x3727C5AC#32),
    unary main_cst_5 main_v33 (broadcastInDim S1000x16 ![] bcast_S_S1000x16),
    binary main_v32 main_v33 main_v34 addf,
    unary main_v34 main_v35 Host.rsqrt,
    nullary main_c_6 (constantI S_ 32 0#32),
    unary main_c_6 main_v36 (broadcastInDim S100000 ![] bcast_S_S100000),
    binary main_arg2 main_v36 main_v37 (cmpi .slt),
    nullary main_c_7 (constantI S_ 32 1000#32),
    unary main_c_7 main_v38 (broadcastInDim S100000 ![] bcast_S_S100000),
    binary main_arg2 main_v38 main_v39 addi,
    ternary main_v37 main_v39 main_arg2 main_v40 select,
    unary main_v40 main_v41 (broadcastInDim S100000x1 ![0] bcast_S100000_S100000x1_0),
    binary main_v35 main_v41 main_v42 (fun x i => Host.gather gather_S1000x16_S100000x1_S100000x16_1_0_n_n_0_1_116 x i),
    binary main_v26 main_v42 main_v43 mulf,
    unary main_arg3 main_v44 (broadcastInDim S1x16 ![1] bcast_S16_S1x16_1),
    unary main_v44 main_v45 (broadcastInDim S100000x16 ![0, 1] bcast_S1x16_S100000x16_0_1),
    binary main_v45 main_v43 main_v46 mulf,
    unary main_arg4 main_v47 (broadcastInDim S1x16 ![1] bcast_S16_S1x16_1),
    unary main_v47 main_v48 (broadcastInDim S100000x16 ![0, 1] bcast_S1x16_S100000x16_0_1),
    binary main_v46 main_v48 main_v49 addf ]

noncomputable abbrev opsB2 : List (HloOp τ sig (Elt F)) :=
  [ binary main_v49 main_arg6 main_v50 (fun l r => Host.dotGeneral dot_S100000x16_S16x64_S100000x64_1_0_0_1_n_n none l r),
    nullary main_cst_8 (constant S_ .f32 0x3F800000#32),
    unary main_cst_8 main_v51 (broadcastInDim S1600000 ![] bcast_S_S1600000),
    nullary main_cst_9 (constant S_ .f32 0x00000000#32),
    unary main_cst_9 main_v52 (broadcastInDim S100000 ![] bcast_S_S100000),
    unary main_v3 main_v53 (broadcastInDim S1600000x1 ![0] bcast_S1600000_S1600000x1_0),
    ternary main_v52 main_v53 main_v51 main_v54 (fun x i u => Host.scatterAdd scatter_S100000_S1600000x1_S1600000_n_0_0_1 x i u),
    nullary main_cst_10 (constant S_ .f32 0x3F800000#32),
    unary main_cst_10 main_v55 (broadcastInDim S100000 ![] bcast_S_S100000),
    binary main_v54 main_v55 main_v56 addf,
    unary main_v56 main_v57 Host.rsqrt,
    nullary main_c_11 (constantI S_ 32 0#32),
    unary main_c_11 main_v58 (broadcastInDim S1600000 ![] bcast_S_S1600000),
    binary main_v1 main_v58 main_v59 (cmpi .slt),
    nullary main_c_12 (constantI S_ 32 100000#32),
    unary main_c_12 main_v60 (broadcastInDim S1600000 ![] bcast_S_S1600000),
    binary main_v1 main_v60 main_v61 addi,
    ternary main_v59 main_v61 main_v1 main_v62 select,
    unary main_v62 main_v63 (broadcastInDim S1600000x1 ![0] bcast_S1600000_S1600000x1_0),
    binary main_v50 main_v63 main_v64 (fun x i => Host.gather gather_S100000x64_S1600000x1_S1600000x64_1_0_n_n_0_1_164 x i),
    nullary main_c_13 (constantI S_ 32 0#32),
    unary main_c_13 main_v65 (broadcastInDim S1600000 ![] bcast_S_S1600000),
    binary main_v1 main_v65 main_v66 (cmpi .slt),
    nullary main_c_14 (constantI S_ 32 100000#32),
    unary main_c_14 main_v67 (broadcastInDim S1600000 ![] bcast_S_S1600000),
    binary main_v1 main_v67 main_v68 addi,
    ternary main_v66 main_v68 main_v1 main_v69 select,
    unary main_v69 main_v70 (broadcastInDim S1600000x1 ![0] bcast_S1600000_S1600000x1_0),
    binary main_v57 main_v70 main_v71 (fun x i => Host.gather gather_S100000_S1600000x1_S1600000_n_0_n_n_0_1_1 x i),
    nullary main_c_15 (constantI S_ 32 0#32),
    unary main_c_15 main_v72 (broadcastInDim S1600000 ![] bcast_S_S1600000),
    binary main_v3 main_v72 main_v73 (cmpi .slt),
    nullary main_c_16 (constantI S_ 32 100000#32),
    unary main_c_16 main_v74 (broadcastInDim S1600000 ![] bcast_S_S1600000),
    binary main_v3 main_v74 main_v75 addi,
    ternary main_v73 main_v75 main_v3 main_v76 select,
    unary main_v76 main_v77 (broadcastInDim S1600000x1 ![0] bcast_S1600000_S1600000x1_0),
    binary main_v57 main_v77 main_v78 (fun x i => Host.gather gather_S100000_S1600000x1_S1600000_n_0_n_n_0_1_1 x i),
    binary main_v71 main_v78 main_v79 mulf,
    unary main_v79 main_v80 (broadcastInDim S1600000x1 ![0] bcast_S1600000_S1600000x1_0),
    unary main_v80 main_v81 (broadcastInDim S1600000x64 ![0, 1] bcast_S1600000x1_S1600000x64_0_1),
    binary main_v64 main_v81 main_v82 mulf,
    nullary main_cst_17 (constant S_ .f32 0x00000000#32),
    unary main_cst_17 main_v83 (broadcastInDim S100000x64 ![] bcast_S_S100000x64),
    unary main_v3 main_v84 (broadcastInDim S1600000x1 ![0] bcast_S1600000_S1600000x1_0),
    ternary main_v83 main_v84 main_v82 main_v85 (fun x i u => Host.scatterAdd scatter_S100000x64_S1600000x1_S1600000x64_1_0_0_1 x i u),
    unary main_v56 main_v86 (broadcastInDim S100000x1 ![0] bcast_S100000_S100000x1_0),
    unary main_v86 main_v87 (broadcastInDim S100000x64 ![0, 1] bcast_S100000x1_S100000x64_0_1),
    binary main_v50 main_v87 main_v88 Host.divf,
    binary main_v85 main_v88 main_v89 addf,
    unary main_arg7 main_v90 (broadcastInDim S1x64 ![1] bcast_S64_S1x64_1),
    unary main_v90 main_v91 (broadcastInDim S100000x64 ![0, 1] bcast_S1x64_S100000x64_0_1),
    binary main_v89 main_v91 main_v92 addf,
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v92) (TRef.of (T := ⟨S100000x64, .f32⟩) main_call0_v0) (TRef.of (T := ⟨S100000x64, .f32⟩) main_v93) maximumf ]

noncomputable abbrev opsC1 : List (HloOp τ sig (Elt F)) :=
  [ nullary main_cst_18 (constant S_ .f32 0x3F800000#32),
    unary main_cst_18 main_v94 (broadcastInDim S100000 ![] bcast_S_S100000),
    nullary main_cst_19 (constant S_ .f32 0x00000000#32),
    unary main_cst_19 main_v95 (broadcastInDim S1000 ![] bcast_S_S1000),
    unary main_arg2 main_v96 (broadcastInDim S100000x1 ![0] bcast_S100000_S100000x1_0),
    ternary main_v95 main_v96 main_v94 main_v97 (fun x i u => Host.scatterAdd scatter_S1000_S100000x1_S100000_n_0_0_1 x i u) ]

noncomputable abbrev opsC2 : List (HloOp τ sig (Elt F)) :=
  [ nullary main_cst_20 (constant S_ .f32 0x3F800000#32),
    unary main_cst_20 main_v98 (broadcastInDim S1000 ![] bcast_S_S1000),
    binary main_v97 main_v98 main_v99 maximumf,
    unary main_v99 main_v100 (broadcastInDim S1000x1 ![0] bcast_S1000_S1000x1_0),
    nullary main_cst_21 (constant S_ .f32 0x00000000#32),
    unary main_cst_21 main_v101 (broadcastInDim S1000x64 ![] bcast_S_S1000x64),
    unary main_arg2 main_v102 (broadcastInDim S100000x1 ![0] bcast_S100000_S100000x1_0),
    ternary main_v101 main_v102 main_v93 main_v103 (fun x i u => Host.scatterAdd scatter_S1000x64_S100000x1_S100000x64_1_0_0_1 x i u),
    unary main_v100 main_v104 (broadcastInDim S1000x64 ![0, 1] bcast_S1000x1_S1000x64_0_1),
    binary main_v103 main_v104 main_v105 Host.divf,
    nullary main_c_22 (constantI S_ 32 0#32),
    unary main_c_22 main_v106 (broadcastInDim S100000 ![] bcast_S_S100000),
    binary main_arg2 main_v106 main_v107 (cmpi .slt),
    nullary main_c_23 (constantI S_ 32 1000#32),
    unary main_c_23 main_v108 (broadcastInDim S100000 ![] bcast_S_S100000),
    binary main_arg2 main_v108 main_v109 addi,
    ternary main_v107 main_v109 main_arg2 main_v110 select,
    unary main_v110 main_v111 (broadcastInDim S100000x1 ![0] bcast_S100000_S100000x1_0),
    binary main_v105 main_v111 main_v112 (fun x i => Host.gather gather_S1000x64_S100000x1_S100000x64_1_0_n_n_0_1_164 x i),
    unary main_arg10 main_v113 (broadcastInDim S1x64 ![1] bcast_S64_S1x64_1),
    unary main_v113 main_v114 (broadcastInDim S100000x64 ![0, 1] bcast_S1x64_S100000x64_0_1),
    binary main_v114 main_v112 main_v115 mulf,
    binary main_v93 main_v115 main_v116 subf,
    binary main_v116 main_v116 main_v117 mulf,
    nullary main_cst_24 (constant S_ .f32 0x00000000#32),
    unary main_cst_24 main_v118 (broadcastInDim S1000x64 ![] bcast_S_S1000x64),
    unary main_arg2 main_v119 (broadcastInDim S100000x1 ![0] bcast_S100000_S100000x1_0),
    ternary main_v118 main_v119 main_v117 main_v120 (fun x i u => Host.scatterAdd scatter_S1000x64_S100000x1_S100000x64_1_0_0_1 x i u),
    unary main_v100 main_v121 (broadcastInDim S1000x64 ![0, 1] bcast_S1000x1_S1000x64_0_1),
    binary main_v120 main_v121 main_v122 Host.divf,
    nullary main_cst_25 (constant S_ .f32 0x3727C5AC#32),
    unary main_cst_25 main_v123 (broadcastInDim S1000x64 ![] bcast_S_S1000x64),
    binary main_v122 main_v123 main_v124 addf,
    unary main_v124 main_v125 Host.rsqrt,
    nullary main_c_26 (constantI S_ 32 0#32),
    unary main_c_26 main_v126 (broadcastInDim S100000 ![] bcast_S_S100000),
    binary main_arg2 main_v126 main_v127 (cmpi .slt),
    nullary main_c_27 (constantI S_ 32 1000#32),
    unary main_c_27 main_v128 (broadcastInDim S100000 ![] bcast_S_S100000),
    binary main_arg2 main_v128 main_v129 addi,
    ternary main_v127 main_v129 main_arg2 main_v130 select,
    unary main_v130 main_v131 (broadcastInDim S100000x1 ![0] bcast_S100000_S100000x1_0),
    binary main_v125 main_v131 main_v132 (fun x i => Host.gather gather_S1000x64_S100000x1_S100000x64_1_0_n_n_0_1_164 x i),
    binary main_v116 main_v132 main_v133 mulf,
    unary main_arg8 main_v134 (broadcastInDim S1x64 ![1] bcast_S64_S1x64_1),
    unary main_v134 main_v135 (broadcastInDim S100000x64 ![0, 1] bcast_S1x64_S100000x64_0_1),
    binary main_v135 main_v133 main_v136 mulf,
    unary main_arg9 main_v137 (broadcastInDim S1x64 ![1] bcast_S64_S1x64_1),
    unary main_v137 main_v138 (broadcastInDim S100000x64 ![0, 1] bcast_S1x64_S100000x64_0_1),
    binary main_v136 main_v138 main_v139 addf,
    binary main_v139 main_arg11 main_v140 (fun l r => Host.dotGeneral dot_S100000x64_S64x64_S100000x64_1_0_0_1_n_n none l r),
    nullary main_cst_28 (constant S_ .f32 0x3F800000#32),
    unary main_cst_28 main_v141 (broadcastInDim S1600000 ![] bcast_S_S1600000),
    nullary main_cst_29 (constant S_ .f32 0x00000000#32),
    unary main_cst_29 main_v142 (broadcastInDim S100000 ![] bcast_S_S100000),
    unary main_v3 main_v143 (broadcastInDim S1600000x1 ![0] bcast_S1600000_S1600000x1_0),
    ternary main_v142 main_v143 main_v141 main_v144 (fun x i u => Host.scatterAdd scatter_S100000_S1600000x1_S1600000_n_0_0_1 x i u),
    nullary main_cst_30 (constant S_ .f32 0x3F800000#32),
    unary main_cst_30 main_v145 (broadcastInDim S100000 ![] bcast_S_S100000),
    binary main_v144 main_v145 main_v146 addf ]

noncomputable abbrev opsC3 : List (HloOp τ sig (Elt F)) :=
  [ unary main_v146 main_v147 Host.rsqrt,
    nullary main_c_31 (constantI S_ 32 0#32),
    unary main_c_31 main_v148 (broadcastInDim S1600000 ![] bcast_S_S1600000),
    binary main_v1 main_v148 main_v149 (cmpi .slt),
    nullary main_c_32 (constantI S_ 32 100000#32),
    unary main_c_32 main_v150 (broadcastInDim S1600000 ![] bcast_S_S1600000),
    binary main_v1 main_v150 main_v151 addi,
    ternary main_v149 main_v151 main_v1 main_v152 select,
    unary main_v152 main_v153 (broadcastInDim S1600000x1 ![0] bcast_S1600000_S1600000x1_0),
    binary main_v140 main_v153 main_v154 (fun x i => Host.gather gather_S100000x64_S1600000x1_S1600000x64_1_0_n_n_0_1_164 x i),
    nullary main_c_33 (constantI S_ 32 0#32),
    unary main_c_33 main_v155 (broadcastInDim S1600000 ![] bcast_S_S1600000),
    binary main_v1 main_v155 main_v156 (cmpi .slt),
    nullary main_c_34 (constantI S_ 32 100000#32),
    unary main_c_34 main_v157 (broadcastInDim S1600000 ![] bcast_S_S1600000),
    binary main_v1 main_v157 main_v158 addi,
    ternary main_v156 main_v158 main_v1 main_v159 select,
    unary main_v159 main_v160 (broadcastInDim S1600000x1 ![0] bcast_S1600000_S1600000x1_0),
    binary main_v147 main_v160 main_v161 (fun x i => Host.gather gather_S100000_S1600000x1_S1600000_n_0_n_n_0_1_1 x i),
    nullary main_c_35 (constantI S_ 32 0#32),
    unary main_c_35 main_v162 (broadcastInDim S1600000 ![] bcast_S_S1600000),
    binary main_v3 main_v162 main_v163 (cmpi .slt),
    nullary main_c_36 (constantI S_ 32 100000#32),
    unary main_c_36 main_v164 (broadcastInDim S1600000 ![] bcast_S_S1600000),
    binary main_v3 main_v164 main_v165 addi,
    ternary main_v163 main_v165 main_v3 main_v166 select,
    unary main_v166 main_v167 (broadcastInDim S1600000x1 ![0] bcast_S1600000_S1600000x1_0),
    binary main_v147 main_v167 main_v168 (fun x i => Host.gather gather_S100000_S1600000x1_S1600000_n_0_n_n_0_1_1 x i),
    binary main_v161 main_v168 main_v169 mulf,
    unary main_v169 main_v170 (broadcastInDim S1600000x1 ![0] bcast_S1600000_S1600000x1_0),
    unary main_v170 main_v171 (broadcastInDim S1600000x64 ![0, 1] bcast_S1600000x1_S1600000x64_0_1),
    binary main_v154 main_v171 main_v172 mulf,
    nullary main_cst_37 (constant S_ .f32 0x00000000#32),
    unary main_cst_37 main_v173 (broadcastInDim S100000x64 ![] bcast_S_S100000x64),
    unary main_v3 main_v174 (broadcastInDim S1600000x1 ![0] bcast_S1600000_S1600000x1_0),
    ternary main_v173 main_v174 main_v172 main_v175 (fun x i u => Host.scatterAdd scatter_S100000x64_S1600000x1_S1600000x64_1_0_0_1 x i u),
    unary main_v146 main_v176 (broadcastInDim S100000x1 ![0] bcast_S100000_S100000x1_0),
    unary main_v176 main_v177 (broadcastInDim S100000x64 ![0, 1] bcast_S100000x1_S100000x64_0_1),
    binary main_v140 main_v177 main_v178 Host.divf,
    binary main_v175 main_v178 main_v179 addf,
    unary main_arg12 main_v180 (broadcastInDim S1x64 ![1] bcast_S64_S1x64_1),
    unary main_v180 main_v181 (broadcastInDim S100000x64 ![0, 1] bcast_S1x64_S100000x64_0_1),
    binary main_v179 main_v181 main_v182 addf,
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v182) (TRef.of (T := ⟨S100000x64, .f32⟩) main_call1_v0) (TRef.of (T := ⟨S100000x64, .f32⟩) main_v183) maximumf ]

noncomputable abbrev opsD1 : List (HloOp τ sig (Elt F)) :=
  [ nullary main_cst_38 (constant S_ .f32 0x3F800000#32),
    unary main_cst_38 main_v184 (broadcastInDim S100000 ![] bcast_S_S100000),
    nullary main_cst_39 (constant S_ .f32 0x00000000#32),
    unary main_cst_39 main_v185 (broadcastInDim S1000 ![] bcast_S_S1000),
    unary main_arg2 main_v186 (broadcastInDim S100000x1 ![0] bcast_S100000_S100000x1_0),
    ternary main_v185 main_v186 main_v184 main_v187 (fun x i u => Host.scatterAdd scatter_S1000_S100000x1_S100000_n_0_0_1 x i u),
    nullary main_cst_40 (constant S_ .f32 0x3F800000#32),
    unary main_cst_40 main_v188 (broadcastInDim S1000 ![] bcast_S_S1000),
    binary main_v187 main_v188 main_v189 maximumf,
    unary main_v189 main_v190 (broadcastInDim S1000x1 ![0] bcast_S1000_S1000x1_0),
    nullary main_cst_41 (constant S_ .f32 0x00000000#32),
    unary main_cst_41 main_v191 (broadcastInDim S1000x64 ![] bcast_S_S1000x64),
    unary main_arg2 main_v192 (broadcastInDim S100000x1 ![0] bcast_S100000_S100000x1_0),
    ternary main_v191 main_v192 main_v183 main_v193 (fun x i u => Host.scatterAdd scatter_S1000x64_S100000x1_S100000x64_1_0_0_1 x i u),
    unary main_v190 main_v194 (broadcastInDim S1000x64 ![0, 1] bcast_S1000x1_S1000x64_0_1),
    binary main_v193 main_v194 main_v195 Host.divf ]

noncomputable abbrev opsD2 : List (HloOp τ sig (Elt F)) :=
  [ nullary main_c_42 (constantI S_ 32 0#32),
    unary main_c_42 main_v196 (broadcastInDim S100000 ![] bcast_S_S100000),
    binary main_arg2 main_v196 main_v197 (cmpi .slt),
    nullary main_c_43 (constantI S_ 32 1000#32),
    unary main_c_43 main_v198 (broadcastInDim S100000 ![] bcast_S_S100000),
    binary main_arg2 main_v198 main_v199 addi,
    ternary main_v197 main_v199 main_arg2 main_v200 select,
    unary main_v200 main_v201 (broadcastInDim S100000x1 ![0] bcast_S100000_S100000x1_0),
    binary main_v195 main_v201 main_v202 (fun x i => Host.gather gather_S1000x64_S100000x1_S100000x64_1_0_n_n_0_1_164 x i),
    unary main_arg15 main_v203 (broadcastInDim S1x64 ![1] bcast_S64_S1x64_1),
    unary main_v203 main_v204 (broadcastInDim S100000x64 ![0, 1] bcast_S1x64_S100000x64_0_1),
    binary main_v204 main_v202 main_v205 mulf,
    binary main_v183 main_v205 main_v206 subf,
    binary main_v206 main_v206 main_v207 mulf,
    nullary main_cst_44 (constant S_ .f32 0x00000000#32),
    unary main_cst_44 main_v208 (broadcastInDim S1000x64 ![] bcast_S_S1000x64),
    unary main_arg2 main_v209 (broadcastInDim S100000x1 ![0] bcast_S100000_S100000x1_0),
    ternary main_v208 main_v209 main_v207 main_v210 (fun x i u => Host.scatterAdd scatter_S1000x64_S100000x1_S100000x64_1_0_0_1 x i u),
    unary main_v190 main_v211 (broadcastInDim S1000x64 ![0, 1] bcast_S1000x1_S1000x64_0_1),
    binary main_v210 main_v211 main_v212 Host.divf,
    nullary main_cst_45 (constant S_ .f32 0x3727C5AC#32),
    unary main_cst_45 main_v213 (broadcastInDim S1000x64 ![] bcast_S_S1000x64),
    binary main_v212 main_v213 main_v214 addf,
    unary main_v214 main_v215 Host.rsqrt,
    nullary main_c_46 (constantI S_ 32 0#32),
    unary main_c_46 main_v216 (broadcastInDim S100000 ![] bcast_S_S100000),
    binary main_arg2 main_v216 main_v217 (cmpi .slt),
    nullary main_c_47 (constantI S_ 32 1000#32),
    unary main_c_47 main_v218 (broadcastInDim S100000 ![] bcast_S_S100000),
    binary main_arg2 main_v218 main_v219 addi,
    ternary main_v217 main_v219 main_arg2 main_v220 select,
    unary main_v220 main_v221 (broadcastInDim S100000x1 ![0] bcast_S100000_S100000x1_0),
    binary main_v215 main_v221 main_v222 (fun x i => Host.gather gather_S1000x64_S100000x1_S100000x64_1_0_n_n_0_1_164 x i),
    binary main_v206 main_v222 main_v223 mulf,
    unary main_arg13 main_v224 (broadcastInDim S1x64 ![1] bcast_S64_S1x64_1),
    unary main_v224 main_v225 (broadcastInDim S100000x64 ![0, 1] bcast_S1x64_S100000x64_0_1),
    binary main_v225 main_v223 main_v226 mulf,
    unary main_arg14 main_v227 (broadcastInDim S1x64 ![1] bcast_S64_S1x64_1),
    unary main_v227 main_v228 (broadcastInDim S100000x64 ![0, 1] bcast_S1x64_S100000x64_0_1),
    binary main_v226 main_v228 main_v229 addf,
    binary main_v229 main_arg16 main_v230 (fun l r => Host.dotGeneral dot_S100000x64_S64x64_S100000x64_1_0_0_1_n_n none l r),
    nullary main_cst_48 (constant S_ .f32 0x3F800000#32),
    unary main_cst_48 main_v231 (broadcastInDim S1600000 ![] bcast_S_S1600000),
    nullary main_cst_49 (constant S_ .f32 0x00000000#32),
    unary main_cst_49 main_v232 (broadcastInDim S100000 ![] bcast_S_S100000),
    unary main_v3 main_v233 (broadcastInDim S1600000x1 ![0] bcast_S1600000_S1600000x1_0),
    ternary main_v232 main_v233 main_v231 main_v234 (fun x i u => Host.scatterAdd scatter_S100000_S1600000x1_S1600000_n_0_0_1 x i u),
    nullary main_cst_50 (constant S_ .f32 0x3F800000#32),
    unary main_cst_50 main_v235 (broadcastInDim S100000 ![] bcast_S_S100000),
    binary main_v234 main_v235 main_v236 addf,
    unary main_v236 main_v237 Host.rsqrt,
    nullary main_c_51 (constantI S_ 32 0#32),
    unary main_c_51 main_v238 (broadcastInDim S1600000 ![] bcast_S_S1600000),
    binary main_v1 main_v238 main_v239 (cmpi .slt),
    nullary main_c_52 (constantI S_ 32 100000#32),
    unary main_c_52 main_v240 (broadcastInDim S1600000 ![] bcast_S_S1600000),
    binary main_v1 main_v240 main_v241 addi,
    ternary main_v239 main_v241 main_v1 main_v242 select,
    unary main_v242 main_v243 (broadcastInDim S1600000x1 ![0] bcast_S1600000_S1600000x1_0),
    binary main_v230 main_v243 main_v244 (fun x i => Host.gather gather_S100000x64_S1600000x1_S1600000x64_1_0_n_n_0_1_164 x i) ]

noncomputable abbrev opsD3 : List (HloOp τ sig (Elt F)) :=
  [ nullary main_c_53 (constantI S_ 32 0#32),
    unary main_c_53 main_v245 (broadcastInDim S1600000 ![] bcast_S_S1600000),
    binary main_v1 main_v245 main_v246 (cmpi .slt),
    nullary main_c_54 (constantI S_ 32 100000#32),
    unary main_c_54 main_v247 (broadcastInDim S1600000 ![] bcast_S_S1600000),
    binary main_v1 main_v247 main_v248 addi,
    ternary main_v246 main_v248 main_v1 main_v249 select,
    unary main_v249 main_v250 (broadcastInDim S1600000x1 ![0] bcast_S1600000_S1600000x1_0),
    binary main_v237 main_v250 main_v251 (fun x i => Host.gather gather_S100000_S1600000x1_S1600000_n_0_n_n_0_1_1 x i),
    nullary main_c_55 (constantI S_ 32 0#32),
    unary main_c_55 main_v252 (broadcastInDim S1600000 ![] bcast_S_S1600000),
    binary main_v3 main_v252 main_v253 (cmpi .slt),
    nullary main_c_56 (constantI S_ 32 100000#32),
    unary main_c_56 main_v254 (broadcastInDim S1600000 ![] bcast_S_S1600000),
    binary main_v3 main_v254 main_v255 addi,
    ternary main_v253 main_v255 main_v3 main_v256 select,
    unary main_v256 main_v257 (broadcastInDim S1600000x1 ![0] bcast_S1600000_S1600000x1_0),
    binary main_v237 main_v257 main_v258 (fun x i => Host.gather gather_S100000_S1600000x1_S1600000_n_0_n_n_0_1_1 x i),
    binary main_v251 main_v258 main_v259 mulf,
    unary main_v259 main_v260 (broadcastInDim S1600000x1 ![0] bcast_S1600000_S1600000x1_0),
    unary main_v260 main_v261 (broadcastInDim S1600000x64 ![0, 1] bcast_S1600000x1_S1600000x64_0_1),
    binary main_v244 main_v261 main_v262 mulf,
    nullary main_cst_57 (constant S_ .f32 0x00000000#32),
    unary main_cst_57 main_v263 (broadcastInDim S100000x64 ![] bcast_S_S100000x64),
    unary main_v3 main_v264 (broadcastInDim S1600000x1 ![0] bcast_S1600000_S1600000x1_0),
    ternary main_v263 main_v264 main_v262 main_v265 (fun x i u => Host.scatterAdd scatter_S100000x64_S1600000x1_S1600000x64_1_0_0_1 x i u),
    unary main_v236 main_v266 (broadcastInDim S100000x1 ![0] bcast_S100000_S100000x1_0),
    unary main_v266 main_v267 (broadcastInDim S100000x64 ![0, 1] bcast_S100000x1_S100000x64_0_1),
    binary main_v230 main_v267 main_v268 Host.divf,
    binary main_v265 main_v268 main_v269 addf,
    unary main_arg17 main_v270 (broadcastInDim S1x64 ![1] bcast_S64_S1x64_1),
    unary main_v270 main_v271 (broadcastInDim S100000x64 ![0, 1] bcast_S1x64_S100000x64_0_1),
    binary main_v269 main_v271 main_v272 addf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v272) (TRef.of (T := ⟨S100000x64, .f32⟩) main_call2_v0) (TRef.of (T := ⟨S100000x64, .f32⟩) main_v273) maximumf ]

noncomputable abbrev opsE1 : List (HloOp τ sig (Elt F)) :=
  [ nullary main_cst_58 (constant S_ .f32 0x3F800000#32),
    unary main_cst_58 main_v274 (broadcastInDim S100000 ![] bcast_S_S100000),
    nullary main_cst_59 (constant S_ .f32 0x00000000#32),
    unary main_cst_59 main_v275 (broadcastInDim S1000 ![] bcast_S_S1000),
    unary main_arg2 main_v276 (broadcastInDim S100000x1 ![0] bcast_S100000_S100000x1_0),
    ternary main_v275 main_v276 main_v274 main_v277 (fun x i u => Host.scatterAdd scatter_S1000_S100000x1_S100000_n_0_0_1 x i u),
    nullary main_cst_60 (constant S_ .f32 0x3F800000#32),
    unary main_cst_60 main_v278 (broadcastInDim S1000 ![] bcast_S_S1000),
    binary main_v277 main_v278 main_v279 maximumf,
    nullary main_cst_61 (constant S_ .f32 0x00000000#32),
    unary main_cst_61 main_v280 (broadcastInDim S1000x64 ![] bcast_S_S1000x64),
    unary main_arg2 main_v281 (broadcastInDim S100000x1 ![0] bcast_S100000_S100000x1_0),
    ternary main_v280 main_v281 main_v273 main_v282 (fun x i u => Host.scatterAdd scatter_S1000x64_S100000x1_S100000x64_1_0_0_1 x i u),
    unary main_v279 main_v283 (broadcastInDim S1000x1 ![0] bcast_S1000_S1000x1_0),
    unary main_v283 main_v284 (broadcastInDim S1000x64 ![0, 1] bcast_S1000x1_S1000x64_0_1),
    binary main_v282 main_v284 main_v285 Host.divf,
    binary main_v285 main_arg18 main_v286 (fun l r => Host.dotGeneral dot_S1000x64_S64x64_S1000x64_1_0_0_1_n_n none l r),
    unary main_arg19 main_v287 (broadcastInDim S1x64 ![1] bcast_S64_S1x64_1),
    unary main_v287 main_v288 (broadcastInDim S1000x64 ![0, 1] bcast_S1x64_S1000x64_0_1),
    binary main_v286 main_v288 main_v289 addf,
    TRef.nullary (TRef.of (T := ⟨S_, .f32⟩) main_call3_cst) (constant S_ .f32 0x00000000#32),
    TRef.unary (TRef.of (T := ⟨S_, .f32⟩) main_call3_cst) (TRef.of (T := ⟨S1000x64, .f32⟩) main_call3_v0) (broadcastInDim S1000x64 ![] bcast_S_S1000x64),
    TRef.binary (TRef.of (T := ⟨S1000x64, .f32⟩) main_v289) (TRef.of (T := ⟨S1000x64, .f32⟩) main_call3_v0) (TRef.of (T := ⟨S1000x64, .f32⟩) main_v290) maximumf,
    binary main_v290 main_arg20 main_v291 (fun l r => Host.dotGeneral dot_S1000x64_S64x2_S1000x2_1_0_0_1_n_n none l r),
    unary main_arg21 main_v292 (broadcastInDim S1x2 ![1] bcast_S2_S1x2_1),
    unary main_v292 main_v293 (broadcastInDim S1000x2 ![0, 1] bcast_S1x2_S1000x2_0_1),
    binary main_v291 main_v293 main_v294 addf,
    nullary main_cst_62 (constant S_ .f32 0xFF800000#32) ]

noncomputable abbrev opsE2 : List (HloOp τ sig (Elt F)) :=
  [ binary main_v294 main_cst_62 main_v295 (fun x v => Host.reduce FloatOps.maximumf x v reducesTo_S1000x2_S1000_d1 h_S_),
    nullary main_cst_63 (constant S_ .f32 0xFF800000#32),
    unary main_cst_63 main_v296 (broadcastInDim S1000 ![] bcast_S_S1000),
    binary main_v296 main_v295 main_v297 maximumf,
    unary main_v297 main_v298 (broadcastInDim S1000x1 ![0] bcast_S1000_S1000x1_0),
    unary main_v298 main_v299 (broadcastInDim S1000x2 ![0, 1] bcast_S1000x1_S1000x2_0_1),
    binary main_v294 main_v299 main_v300 subf,
    unary main_v300 main_v301 Host.exp,
    nullary main_cst_64 (constant S_ .f32 0x00000000#32),
    binary main_v301 main_cst_64 main_v302 (fun x v => Host.reduceAdd x v reducesTo_S1000x2_S1000_d1 h_S_),
    unary main_v302 main_v303 (broadcastInDim S1000x1 ![0] bcast_S1000_S1000x1_0),
    unary main_v303 main_v304 (broadcastInDim S1000x2 ![0, 1] bcast_S1000x1_S1000x2_0_1),
    binary main_v301 main_v304 main_v305 Host.divf ]

end Cert.ReferenceIdeal.RunC

end
-- ==== Proof.RefStages.lean ====
import proofs.«417558_j31903017075238_1_alg».proof.Proof.RefOps
import proofs.«417558_j31903017075238_1_alg».proof.Proof.RefRead
import Idealize.ShloMosaic.Lib.Pipeline.Frame

noncomputable section

namespace Cert.ReferenceIdeal.RunC

open Idealize.ShloMosaic Idealize.ShloMosaic.StableHlo

variable {F : FTy → Type} [FloatOps F]

/-- The 22 arguments of @main, which are the references numbered 0 to 21. -/
noncomputable def argRef : Fin 22 → Ref sig .tc :=
  ![main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20, main_arg21]

abbrev Args (F : FTy → Type) := (k : Fin 22) → (Proc.devRef (τ := τ) .tc (argRef k)).ty.Contents (Elt F)

def argsAt (W : Valuation τ sig (Elt F)) : Args F := fun k => W (Proc.devRef .tc (argRef k))

/-- In `W` the reference `b` holds the stage `s` of the arguments `W` holds. -/
abbrev At (W : Valuation τ sig (Elt F)) (b : Ref sig .tc) (s : Args F → (Proc.devRef (τ := τ) .tc b).ty.Contents (Elt F)) : Prop :=
  W (Proc.devRef .tc b) = s (argsAt W)

/-- The reference's operations in program order, grouped as the seven parts of @main. -/
noncomputable abbrev ops : List (HloOp τ sig (Elt F)) :=
  (opsA ++ opsB1) ++ (opsB2 ++ opsC1) ++ opsC2 ++ (opsC3 ++ opsD1) ++ opsD2 ++ (opsD3 ++ opsE1) ++ opsE2

theorem ops_sub : (ops : List (HloOp τ sig (Elt F))).Forall fun op => op.bufs ⊆ tcRefs τ sig := by
  simp only [List.forall_append]
  repeat' apply And.intro
  all_goals simp only [List.Forall, nullary_bufs_sub, unary_bufs_sub, binary_bufs_sub, ternary_bufs_sub, reshape_bufs_sub]

theorem ops_fresh : ∀ op ∈ (ops : List (HloOp τ sig (Elt F))), op.fresh = ∅ :=
  List.forall_iff_forall_mem.mp (by
    simp only [List.forall_append]
    repeat' apply And.intro
    all_goals rfl)

/-- Every operation of the list writes exactly one reference, numbered `lo` or higher. -/
def Above (lo : Nat) (l : List (HloOp τ sig (Elt F))) : Prop :=
  l.Forall fun op => ∃ y : Ref sig .tc, lo ≤ y.idx.val ∧ op.writes = {Proc.devRef .tc y}

/-- Operation number `k` of the program writes reference number `22 + k`. -/
theorem above_pieces : Above 22 (opsA (F := F)) ∧ Above 26 (opsB1 (F := F)) ∧ Above 82 (opsB2 (F := F)) ∧ Above 138 (opsC1 (F := F))
    ∧ Above 144 (opsC2 (F := F)) ∧ Above 204 (opsC3 (F := F)) ∧ Above 250 (opsD1 (F := F)) ∧ Above 266 (opsD2 (F := F))
    ∧ Above 326 (opsD3 (F := F)) ∧ Above 362 (opsE1 (F := F)) ∧ Above 390 (opsE2 (F := F)) := by
  repeat' apply And.intro
  all_goals exact ⟨_, by decide, rfl⟩

theorem above_ops : Above 22 (ops (F := F)) := by
  repeat' apply And.intro
  all_goals exact ⟨_, by decide, rfl⟩

section
variable {lo : Nat} {l : List (HloOp τ sig (Elt F))} (h : Above lo l) {W : Valuation τ sig (Elt F)} {b : Ref sig .tc}
  {s : Args F → (Proc.devRef (τ := τ) .tc b).ty.Contents (Elt F)}
include h

/-- A reference numbered below everything a list writes holds after it what it held before. -/
theorem keep (hb : b.idx.val < lo) : after l W (Proc.devRef .tc b) = W (Proc.devRef .tc b) :=
  after_of_forall_not_mem l W fun op hop hm => by
    obtain ⟨y, hy, e⟩ := List.forall_iff_forall_mem.mp h op hop
    rw [e, Finset.mem_singleton] at hm
    exact absurd (Proc.devRef_injective _ hm ▸ hy) (Nat.not_le.mpr hb)

theorem argsAt_after (h22 : 22 ≤ lo := by decide) : argsAt (after l W) = argsAt W :=
  funext fun k => keep h (Nat.lt_of_lt_of_le ((by decide : ∀ k, (argRef k).idx.val < 22) k) h22)

/-- What a list computes from `W` as a stage of `W`'s arguments is that stage of the arguments after it. -/
theorem made (e : after l W (Proc.devRef .tc b) = s (argsAt W)) (h22 : 22 ≤ lo := by decide) : At (after l W) b s :=
  e.trans (congrArg s (argsAt_after h h22).symm)

/-- A stage held in a reference the list does not write is still held after it. -/
theorem carry (e : At W b s) (hb : b.idx.val < lo := by decide) (h22 : 22 ≤ lo := by decide) : At (after l W) b s :=
  made h ((keep h hb).trans e) h22
end

abbrev s1 (X : Args F) := Read.val_main_v1 (F := F) (X 1)
abbrev s3 (X : Args F) := Read.val_main_v3 (F := F) (X 1)
abbrev s49 (X : Args F) := Read.val_main_v49 (F := F) (X 0) (X 2) (X 3) (X 4) (X 5)
abbrev s93 (X : Args F) := Read.val_main_v93 (F := F) (X 0) (X 1) (X 2) (X 3) (X 4) (X 5) (X 6) (X 7)
abbrev s97 (X : Args F) := Read.val_main_v97 (F := F) (X 2)
abbrev s140 (X : Args F) := Read.val_main_v140 (F := F) (X 0) (X 1) (X 2) (X 3) (X 4) (X 5) (X 6) (X 7) (X 8) (X 9) (X 10) (X 11)
abbrev s146 (X : Args F) := Read.val_main_v146 (F := F) (X 1)
abbrev s183 (X : Args F) := Read.val_main_v183 (F := F) (X 0) (X 1) (X 2) (X 3) (X 4) (X 5) (X 6) (X 7) (X 8) (X 9) (X 10) (X 11) (X 12)
abbrev s190 (X : Args F) := Read.val_main_v190 (F := F) (X 2)
abbrev s195 (X : Args F) := Read.val_main_v195 (F := F) (X 0) (X 1) (X 2) (X 3) (X 4) (X 5) (X 6) (X 7) (X 8) (X 9) (X 10) (X 11) (X 12)
abbrev s230 (X : Args F) := Read.val_main_v230 (F := F) (X 0) (X 1) (X 2) (X 3) (X 4) (X 5) (X 6) (X 7) (X 8) (X 9) (X 10) (X 11) (X 12) (X 13) (X 14) (X 15) (X 16)
abbrev s236 (X : Args F) := Read.val_main_v236 (F := F) (X 1)
abbrev s237 (X : Args F) := Read.val_main_v237 (F := F) (X 1)
abbrev s244 (X : Args F) := Read.val_main_v244 (F := F) (X 0) (X 1) (X 2) (X 3) (X 4) (X 5) (X 6) (X 7) (X 8) (X 9) (X 10) (X 11) (X 12) (X 13) (X 14) (X 15) (X 16)
abbrev s273 (X : Args F) := Read.val_main_v273 (F := F) (X 0) (X 1) (X 2) (X 3) (X 4) (X 5) (X 6) (X 7) (X 8) (X 9) (X 10) (X 11) (X 12) (X 13) (X 14) (X 15) (X 16) (X 17)
abbrev s294 (X : Args F) := Read.val_main_v294 (F := F) (X 0) (X 1) (X 2) (X 3) (X 4) (X 5) (X 6) (X 7) (X 8) (X 9) (X 10) (X 11) (X 12) (X 13) (X 14) (X 15) (X 16) (X 17) (X 18) (X 19) (X 20) (X 21)
abbrev sc62 (_ : Args F) := Read.val_main_cst_62 (F := F)
abbrev s305 (X : Args F) := Read.val_main_v305 (F := F) (X 0) (X 1) (X 2) (X 3) (X 4) (X 5) (X 6) (X 7) (X 8) (X 9) (X 10) (X 11) (X 12) (X 13) (X 14) (X 15) (X 16) (X 17) (X 18) (X 19) (X 20) (X 21)

end Cert.ReferenceIdeal.RunC

end
-- ==== Proof.RefPieceB.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceA_1 : after opsA W (Proc.devRef .tc main_v1) = s1 (argsAt W) := by
  after_results_simp
  rfl

theorem pieceA_3 : after opsA W (Proc.devRef .tc main_v3) = s3 (argsAt W) := by
  after_results_simp
  rfl

theorem pieceB1_49 : after opsB1 W (Proc.devRef .tc main_v49) = s49 (argsAt W) := by
  after_results_simp
  rfl

theorem pieceB2_93 (h1 : At W main_v1 s1) (h3 : At W main_v3 s3) (h49 : At W main_v49 s49) :
    after opsB2 W (Proc.devRef .tc main_v93) = s93 (argsAt W) := by
  after_results_simp
  rw [h1, h3, h49]
  rfl

end Cert.ReferenceIdeal.RunC
-- ==== Proof.RefPieceC.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceC1_97 : after opsC1 W (Proc.devRef .tc main_v97) = s97 (argsAt W) := by
  after_results_simp
  rfl

theorem pieceC2_140 (h93 : At W main_v93 s93) (h97 : At W main_v97 s97) :
    after opsC2 W (Proc.devRef .tc main_v140) = s140 (argsAt W) := by
  after_results_simp
  rw [h93, h97]
  rfl

theorem pieceC2_146 (h3 : At W main_v3 s3) : after opsC2 W (Proc.devRef .tc main_v146) = s146 (argsAt W) := by
  after_results_simp
  rw [h3]
  rfl

theorem pieceC3_183 (h1 : At W main_v1 s1) (h3 : At W main_v3 s3) (h140 : At W main_v140 s140) (h146 : At W main_v146 s146) :
    after opsC3 W (Proc.devRef .tc main_v183) = s183 (argsAt W) := by
  after_results_simp
  rw [h1, h3, h140, h146]
  rfl

end Cert.ReferenceIdeal.RunC
-- ==== Proof.RefPieceD1.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceD1_190 : after opsD1 W (Proc.devRef .tc main_v190) = s190 (argsAt W) := by
  after_results_simp
  rfl

theorem pieceD1_195 (h183 : At W main_v183 s183) : after opsD1 W (Proc.devRef .tc main_v195) = s195 (argsAt W) := by
  after_results_simp
  rw [h183]
  rfl

end Cert.ReferenceIdeal.RunC
-- ==== Proof.RefPieceD2a.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceD2_230 (h183 : At W main_v183 s183) (h190 : At W main_v190 s190) (h195 : At W main_v195 s195) :
    after opsD2 W (Proc.devRef .tc main_v230) = s230 (argsAt W) := by
  after_results_simp
  rw [h183, h190, h195]
  rfl

end Cert.ReferenceIdeal.RunC
-- ==== Proof.RefPieceD2b.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceD2_236 (h3 : At W main_v3 s3) : after opsD2 W (Proc.devRef .tc main_v236) = s236 (argsAt W) := by
  after_results_simp
  rw [h3]
  rfl

theorem pieceD2_237 (h3 : At W main_v3 s3) : after opsD2 W (Proc.devRef .tc main_v237) = s237 (argsAt W) := by
  after_results_simp
  rw [h3]
  rfl

theorem pieceD2_244 (h1 : At W main_v1 s1) (h183 : At W main_v183 s183) (h190 : At W main_v190 s190) (h195 : At W main_v195 s195) :
    after opsD2 W (Proc.devRef .tc main_v244) = s244 (argsAt W) := by
  after_results_simp
  rw [h1, h183, h190, h195]
  rfl

end Cert.ReferenceIdeal.RunC
-- ==== Proof.RefPieceD3.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceD3_273 (h1 : At W main_v1 s1) (h3 : At W main_v3 s3) (h230 : At W main_v230 s230) (h236 : At W main_v236 s236) (h237 : At W main_v237 s237) (h244 : At W main_v244 s244) :
    after opsD3 W (Proc.devRef .tc main_v273) = s273 (argsAt W) := by
  after_results_simp
  rw [h1, h3, h230, h236, h237, h244]
  rfl

end Cert.ReferenceIdeal.RunC
-- ==== Proof.RefPieceE.lean ====
import proofs.«417558_j31903017075238_1_alg».proof.Proof.RefStages

namespace Cert.ReferenceIdeal.RunC

open Idealize.ShloMosaic Idealize.ShloMosaic.StableHlo

variable {F : FTy → Type} [FloatOps F] (W : Valuation τ sig (Elt F))

theorem pieceE1_294 (h273 : At W main_v273 s273) : after opsE1 W (Proc.devRef .tc main_v294) = s294 (argsAt W) := by
  after_results_simp
  rw [h273]
  rfl

theorem pieceE1_c62 : after opsE1 W (Proc.devRef .tc main_cst_62) = sc62 (argsAt W) := by
  after_results_simp
  rfl

theorem pieceE2_305 (h294 : At W main_v294 s294) (hc62 : At W main_cst_62 sc62) :
    after opsE2 W (Proc.devRef .tc main_v305) = s305 (argsAt W) := by
  after_results_simp
  rw [h294, hc62]
  rfl

end Cert.ReferenceIdeal.RunC
-- ==== Proof.RefRun.lean ====
import proofs.«417558_j31903017075238_1_alg».proof.Proof.RefPieceB
import proofs.«417558_j31903017075238_1_alg».proof.Proof.RefPieceC
import proofs.«417558_j31903017075238_1_alg».proof.Proof.RefPieceD1
import proofs.«417558_j31903017075238_1_alg».proof.Proof.RefPieceD2a
import proofs.«417558_j31903017075238_1_alg».proof.Proof.RefPieceD2b
import proofs.«417558_j31903017075238_1_alg».proof.Proof.RefPieceD3
import proofs.«417558_j31903017075238_1_alg».proof.Proof.RefPieceE

namespace Cert.ReferenceIdeal.RunC

open Idealize.ShloMosaic Idealize.ShloMosaic.TcCoe Idealize.SL.Sem Idealize.ShloMosaic.StableHlo

variable {F : FTy → Type} [FloatOps F]

/-- Piece after piece: what later pieces read is made by one piece and carried, unwritten, across the next ones. -/
theorem out_ops (W : Valuation τ sig (Elt F)) : At (after ops W) main_v305 s305 := by
  obtain ⟨wA, wB1, wB2, wC1, wC2, wC3, wD1, wD2, wD3, wE1, wE2⟩ := above_pieces (F := F)
  simp only [ops, after_append]
  have h1 := made wA (pieceA_1 W)
  have h3 := made wA (pieceA_3 W)
  generalize after opsA W = W at *
  have h49 := made wB1 (pieceB1_49 W)
  have h1 := carry wB1 h1
  have h3 := carry wB1 h3
  generalize after opsB1 W = W at *
  have h93 := made wB2 (pieceB2_93 W h1 h3 h49)
  have h1 := carry wB2 h1
  have h3 := carry wB2 h3
  generalize after opsB2 W = W at *
  have h97 := made wC1 (pieceC1_97 W)
  have h1 := carry wC1 h1
  have h3 := carry wC1 h3
  have h93 := carry wC1 h93
  generalize after opsC1 W = W at *
  have h140 := made wC2 (pieceC2_140 W h93 h97)
  have h146 := made wC2 (pieceC2_146 W h3)
  have h1 := carry wC2 h1
  have h3 := carry wC2 h3
  generalize after opsC2 W = W at *
  have h183 := made wC3 (pieceC3_183 W h1 h3 h140 h146)
  have h1 := carry wC3 h1
  have h3 := carry wC3 h3
  generalize after opsC3 W = W at *
  have h190 := made wD1 (pieceD1_190 W)
  have h195 := made wD1 (pieceD1_195 W h183)
  have h1 := carry wD1 h1
  have h3 := carry wD1 h3
  have h183 := carry wD1 h183
  generalize after opsD1 W = W at *
  have h230 := made wD2 (pieceD2_230 W h183 h190 h195)
  have h236 := made wD2 (pieceD2_236 W h3)
  have h237 := made wD2 (pieceD2_237 W h3)
  have h244 := made wD2 (pieceD2_244 W h1 h183 h190 h195)
  have h1 := carry wD2 h1
  have h3 := carry wD2 h3
  generalize after opsD2 W = W at *
  have h273 := made wD3 (pieceD3_273 W h1 h3 h230 h236 h237 h244)
  generalize after opsD3 W = W at *
  have h294 := made wE1 (pieceE1_294 W h273)
  have hc62 := made wE1 (pieceE1_c62 W)
  generalize after opsE1 W = W at *
  exact made wE2 (pieceE2_305 W h294 hc62)

theorem main_part0_eq (c : Dev nD) : main_part0 (F := F) c = seq (opsA ++ opsB1) := rfl
theorem main_part1_eq (c : Dev nD) : main_part1 (F := F) c = seq (opsB2 ++ opsC1) := rfl
theorem main_part2_eq (c : Dev nD) : main_part2 (F := F) c = seq opsC2 := rfl
theorem main_part3_eq (c : Dev nD) : main_part3 (F := F) c = seq (opsC3 ++ opsD1) := rfl
theorem main_part4_eq (c : Dev nD) : main_part4 (F := F) c = seq opsD2 := rfl
theorem main_part5_eq (c : Dev nD) : main_part5 (F := F) c = seq (opsD3 ++ opsE1) := rfl
theorem main_part6_eq (c : Dev nD) : main_part6 (F := F) c = seq opsE2 := rfl

theorem main_eq (c : Dev nD) : main (F := F) c = seq ops := by
  rw [ops, seq_append, seq_append, seq_append, seq_append, seq_append, seq_append, ← main_part0_eq c, ← main_part1_eq c,
    ← main_part2_eq c, ← main_part3_eq c, ← main_part4_eq c, ← main_part5_eq c, ← main_part6_eq c]
  simp only [bind_assoc]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v305) = Read.val_main_v305 (F := F)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => by
      have a (k : Fin 22) := (h c (argRef k)).trans (congrFun (argsAt_after above_ops) k)
      exact ⟨(h c _).trans ((out_ops _).trans (congrArg s305 (argsAt_after above_ops))), a 0, a 1, a 2, a 3, a 4, a 5, a 6, a 7, a 8, a 9,
        a 10, a 11, a 12, a 13, a 14, a 15, a 16, a 17, a 18, a 19, a 20, a 21⟩)
    (run_seq (by decide) (by decide) defs main (fun _ => ops) main_eq (fun _ => ops_sub) m ρ fun _ => ops_fresh)

end Cert.ReferenceIdeal.RunC
-- ==== Proof.KFold.lean ====
import proofs.«417558_j31903017075238_1_alg».proof.Proof.Gen.KernelIdeal.Frame
import Mathlib.Tactic.IntervalCases

set_option maxRecDepth 16384

noncomputable section

namespace Idealize.ShloMosaic

open Idealize.SL Idealize.SL.RA Idealize.SL.Sem

variable {nD : Nat} {τ : Topo} {sig : RefSig} {Val : EltTy → Type}

/-- The operation writes no reference numbered below `lo`. -/
def HloOp.Above (lo : Nat) (op : HloOp τ sig Val) : Prop :=
  ∀ b : Ref sig .tc, b.idx.val < lo → Proc.devRef (τ := τ) .tc b ∉ op.writes

theorem HloOp.above_of_writes {lo : Nat} {op : HloOp τ sig Val} {y : Ref sig .tc}
    (h : op.writes = {Proc.devRef .tc y}) (hy : lo ≤ y.idx.val) : op.Above lo := fun b hb hm => by
  rw [h, Finset.mem_singleton] at hm
  exact absurd (Proc.devRef_injective _ hm ▸ hb) (Nat.not_lt.2 hy)

/-- Operations that write no reference numbered below `lo` leave every such reference as it was. -/
theorem StableHlo.after_of_above {lo : Nat} {ops : List (HloOp τ sig Val)} (h : ops.Forall (HloOp.Above lo))
    (V : Valuation τ sig Val) {b : Ref sig .tc} (hb : b.idx.val < lo) :
    StableHlo.after ops V (Proc.devRef .tc b) = V (Proc.devRef .tc b) :=
  StableHlo.after_of_forall_not_mem ops V fun op hop => List.forall_iff_forall_mem.mp h op hop b hb

variable {Λ₀ : Labels} {Ix : Type} [DecidableEq Ix] {Name : Type} [DecidableEq Name] {U : Type} [URA U] {Lvl : Type}
variable {cfg : Pipeline.Cfg sig Λ₀} {c : Dev nD}

/-- A region whose output arrays are numbered from `lo` on leaves every reference below `lo` as it was:
    an input array is never written back, and a buffer that is not one of its arrays is untouched. -/
theorem Pipeline.withArrays_of_lt (dat : Pipeline.Dat τ Val Ix Name U Lvl cfg c) (V : Valuation τ sig Val) {lo : Nat} {b : Ref sig .tc}
    (hb : b.idx.val < lo) (hinj : Function.Injective (arrRef cfg.spec) := by decide)
    (hA : ∀ w, dat.A w = V (Proc.devRef .tc (arrRef cfg.spec w)) := by exact fun _ => rfl)
    (hlo : ∀ w, (cfg.win w).isOut = true → lo ≤ (arrRef cfg.spec w).idx.val := by decide) :
    withArrays cfg.spec c V (fun w => dat.arrAt w cfg.N) (Proc.devRef .tc b) = V (Proc.devRef .tc b) := by
  by_cases h : ∃ w, arrRef cfg.spec w = b
  · obtain ⟨w, rfl⟩ := h
    rw [withArrays_arr _ hinj]
    exact (dat.arrAt_in w (Bool.eq_false_iff.2 fun ho => Nat.not_le.2 hb (hlo w ho)) _).trans (hA w)
  · exact withArrays_of_ne _ _ _ _ _ fun w e => h ⟨w, e⟩

end Idealize.ShloMosaic

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The number of the first reference segment k writes: the references are numbered in program order. -/
def bd (k : Nat) : Nat :=
  [22, 29, 30, 46, 47, 49, 50, 51, 52, 54, 55, 56, 98, 101, 104, 105, 107, 108, 109, 110, 112, 113, 114, 156, 159, 162, 163, 165,
    166, 167, 168, 170, 171, 172, 214, 217, 218, 222].getD k 223

/-- The contents at boundary j: boundary 0 is the launch, boundary k + 1 is after segment k. -/
def Wn (j : Nat) : Dev nD → Valuation τ sig (Elt F) :=
  [W0 m ρ, W1 m ρ, W2 m ρ, W3 m ρ, W4 m ρ, W5 m ρ, W6 m ρ, W7 m ρ, W8 m ρ, W9 m ρ, W10 m ρ, W11 m ρ, W12 m ρ,
    W13 m ρ, W14 m ρ, W15 m ρ, W16 m ρ, W17 m ρ, W18 m ρ, W19 m ρ, W20 m ρ, W21 m ρ, W22 m ρ, W23 m ρ, W24 m ρ, W25 m ρ,
    W26 m ρ, W27 m ρ, W28 m ρ, W29 m ρ, W30 m ρ, W31 m ρ, W32 m ρ, W33 m ρ, W34 m ρ, W35 m ρ, W36 m ρ, W37 m ρ].getD j (W38 m ρ)

set_option maxHeartbeats 1000000 in
/-- Segment k writes no reference numbered below its first result. -/
theorem keep (c : Dev nD) (b : Ref sig .tc) (k : Nat) (hk : k < 38) (h : b.idx.val < bd k) :
    Wn m ρ (k + 1) c (Proc.devRef .tc b) = Wn m ρ k c (Proc.devRef .tc b) := by
  interval_cases k <;> first
    | exact StableHlo.after_of_above (by (repeat' apply And.intro) <;> exact HloOp.above_of_writes rfl (by decide)) _ h
    | skip
  exacts [Pipeline.withArrays_of_lt (dat0 (V1 m ρ) c) _ h, Pipeline.withArrays_of_lt (dat1 (V3 m ρ) c) _ h,
    Pipeline.withArrays_of_lt (dat2 (V5 m ρ) c) _ h, Pipeline.withArrays_of_lt (dat3 (V7 m ρ) c) _ h,
    Pipeline.withArrays_of_lt (dat4 (V9 m ρ) c) _ h, Pipeline.withArrays_of_lt (dat5 (V10 m ρ) c) _ h,
    Pipeline.withArrays_of_lt (dat6 (V14 m ρ) c) _ h, Pipeline.withArrays_of_lt (dat7 (V16 m ρ) c) _ h,
    Pipeline.withArrays_of_lt (dat8 (V18 m ρ) c) _ h, Pipeline.withArrays_of_lt (dat9 (V20 m ρ) c) _ h,
    Pipeline.withArrays_of_lt (dat10 (V21 m ρ) c) _ h, Pipeline.withArrays_of_lt (dat11 (V25 m ρ) c) _ h,
    Pipeline.withArrays_of_lt (dat12 (V27 m ρ) c) _ h, Pipeline.withArrays_of_lt (dat13 (V29 m ρ) c) _ h,
    Pipeline.withArrays_of_lt (dat14 (V31 m ρ) c) _ h, Pipeline.withArrays_of_lt (dat15 (V32 m ρ) c) _ h,
    Pipeline.withArrays_of_lt (dat16 (V35 m ρ) c) _ h, Pipeline.withArrays_of_lt (dat17 (V37 m ρ) c) _ h]

theorem bd_mono : ∀ k < 38, ∀ i ≤ k, bd i ≤ bd k := by decide +kernel

/-- A reference numbered below segment i's first result holds at every later boundary what it holds at boundary i. -/
theorem later (c : Dev nD) (b : Ref sig .tc) (i : Nat) (hb : b.idx.val < bd i) :
    ∀ j, i ≤ j → j ≤ 38 → Wn m ρ j c (Proc.devRef .tc b) = Wn m ρ i c (Proc.devRef .tc b) := by
  intro j hij
  induction j, hij using Nat.le_induction with
  | base => intro _; rfl
  | succ j hij ih =>
    intro hj
    exact (keep m ρ c b j hj (Nat.lt_of_lt_of_le hb (bd_mono j hj i hij))).trans (ih (Nat.le_of_succ_le hj))

/-- What such a reference holds at boundary i it holds at every later boundary. -/
theorem hold (c : Dev nD) {b : Ref sig .tc} (i : Nat) {v} (h : Wn m ρ i c (Proc.devRef .tc b) = v) (j : Nat)
    (hb : b.idx.val < bd i := by decide) (hij : i ≤ j := by decide) (hj : j ≤ 38 := by decide) :
    Wn m ρ j c (Proc.devRef .tc b) = v :=
  (later m ρ c b i hb j hij hj).trans h

end Cert.KernelIdeal.Fold

end
-- ==== Proof.Spec.lean ====
import Idealize.ShloMosaic.PureOps.Ideal
import Idealize.ShloMosaic.Lib.ValueIdx

noncomputable section

open Idealize.ShloMosaic Idealize.ShloMosaic.ValueIdx

namespace GraphNet

-- One-hot weight: 1 when node n carries the id g, else 0.
def hot {N : Nat} (b : IVec (⟨2, ![N, 1]⟩ : Shape) 32) (n : Fin N) (g : Nat) : EReal :=
  if b (ix2 n 0) = BitVec.ofNat 32 g then 1 else 0

-- Row g is the sum of the node rows whose id is g.
def segSum {N G C : Nat} (x : FVec Ideal (⟨2, ![N, C]⟩ : Shape) .f32) (b : IVec (⟨2, ![N, 1]⟩ : Shape) 32) :
    FVec Ideal (⟨2, ![G, C]⟩ : Shape) .f32 :=
  fun j => ∑ n : Fin N, hot b n (j 0).val * x (ix2 n (j 1))

-- Row n is the graph row its id names (0 when it names none).
def rowsAt {N G C : Nat} (t : FVec Ideal (⟨2, ![G, C]⟩ : Shape) .f32) (b : IVec (⟨2, ![N, 1]⟩ : Shape) 32) :
    FVec Ideal (⟨2, ![N, C]⟩ : Shape) .f32 :=
  fun i => ∑ g : Fin G, hot b (i 0) g.val * t (ix2 g (i 1))

-- x − a · (mean of the node's graph), column by column.
def centre {N G C : Nat} (x : FVec Ideal (⟨2, ![N, C]⟩ : Shape) .f32) (b : IVec (⟨2, ![N, 1]⟩ : Shape) 32)
    (mean : FVec Ideal (⟨2, ![G, C]⟩ : Shape) .f32) (a : FVec Ideal (⟨2, ![1, C]⟩ : Shape) .f32) :
    FVec Ideal (⟨2, ![N, C]⟩ : Shape) .f32 :=
  fun i => x i - a (ix2 0 (i 1)) * rowsAt mean b i

-- The f32 word of 1e-5.
def eps : EReal := Ideal.ofBits .f32 0x3727C5AC#32

-- w · y / √(var of the node's graph + eps) + bias.
def scale {N G C : Nat} (y : FVec Ideal (⟨2, ![N, C]⟩ : Shape) .f32) (b : IVec (⟨2, ![N, 1]⟩ : Shape) 32)
    (var : FVec Ideal (⟨2, ![G, C]⟩ : Shape) .f32) (w bias : FVec Ideal (⟨2, ![1, C]⟩ : Shape) .f32) :
    FVec Ideal (⟨2, ![N, C]⟩ : Shape) .f32 :=
  fun i => w (ix2 0 (i 1)) * (y i * Ideal.rsqrt (rowsAt var b i + eps)) + bias (ix2 0 (i 1))

-- The matrix product.
def mm {R K M : Nat} (x : FVec Ideal (⟨2, ![R, K]⟩ : Shape) .f32) (w : FVec Ideal (⟨2, ![K, M]⟩ : Shape) .f32) :
    FVec Ideal (⟨2, ![R, M]⟩ : Shape) .f32 :=
  fun i => ∑ k : Fin K, x (ix2 (i 0) k) * w (ix2 k (i 1))

-- max(x·w + bias, 0).
def denseRelu {R K M : Nat} (x : FVec Ideal (⟨2, ![R, K]⟩ : Shape) .f32) (w : FVec Ideal (⟨2, ![K, M]⟩ : Shape) .f32)
    (bias : FVec Ideal (⟨2, ![1, M]⟩ : Shape) .f32) : FVec Ideal (⟨2, ![R, M]⟩ : Shape) .f32 :=
  fun i => max (mm x w i + bias (ix2 0 (i 1))) 0

-- The supremum of row r.
def rowMax {R C : Nat} (z : FVec Ideal (⟨2, ![R, C]⟩ : Shape) .f32) (r : Fin R) : EReal :=
  Finset.univ.sup fun k : Fin C => z (ix2 r k)

-- Softmax of each row, shifted by the row's supremum.
def softmaxRows {R C : Nat} (z : FVec Ideal (⟨2, ![R, C]⟩ : Shape) .f32) : FVec Ideal (⟨2, ![R, C]⟩ : Shape) .f32 :=
  fun i => Ideal.div (Ideal.exp (z i - rowMax z (i 0)))
    (∑ k : Fin C, Ideal.exp (z (ix2 (i 0) k) - rowMax z (i 0)))

-- Dense + positive part, dense, softmax over the classes.
def head {R K M C : Nat} (p : FVec Ideal (⟨2, ![R, K]⟩ : Shape) .f32) (wd : FVec Ideal (⟨2, ![K, M]⟩ : Shape) .f32)
    (bd : FVec Ideal (⟨2, ![1, M]⟩ : Shape) .f32) (wo : FVec Ideal (⟨2, ![M, C]⟩ : Shape) .f32)
    (bo : FVec Ideal (⟨2, ![1, C]⟩ : Shape) .f32) : FVec Ideal (⟨2, ![R, C]⟩ : Shape) .f32 :=
  softmaxRows fun i => mm (denseRelu p wd bd) wo i + bo (ix2 0 (i 1))

end GraphNet

end
-- ==== Proof.KConv.lean ====
import proofs.«417558_j31903017075238_1_alg».proof.KernelIdeal
import proofs.«417558_j31903017075238_1_alg».proof.Proof.Gen.KernelIdeal
import Idealize.ShloMosaic.PureOps.Ideal

noncomputable section

namespace Cert.KernelIdeal.Stage

open Cert.KernelIdeal Cert.KernelIdeal.Gen Idealize.ShloMosaic

/-- Each edge carries its source row weighted by both ends' inverse root degrees; rows are summed per target, then the row over its degree and the bias are added. -/
def conv (h : FVec Ideal S100000x64 .f32) (src dst : IVec S1600000 32) (dinv deg : FVec Ideal S100000 .f32)
    (bias : FVec Ideal S64 .f32) : FVec Ideal S100000x64 .f32 :=
  let c : IVec S_ 32 := constantI S_ 32 0#32
  let v29 := broadcastInDim S1600000 ![] bcast_S_S1600000 c
  let v30 := cmpi .slt src v29
  let c_4 : IVec S_ 32 := constantI S_ 32 100000#32
  let v31 := broadcastInDim S1600000 ![] bcast_S_S1600000 c_4
  let v32 := addi src v31
  let v33 := select v30 v32 src
  let v34 := broadcastInDim S1600000x1 ![0] bcast_S1600000_S1600000x1_0 v33
  let v35 := Host.gather gather_S100000x64_S1600000x1_S1600000x64_1_0_n_n_0_1_164 h v34
  let c_5 : IVec S_ 32 := constantI S_ 32 0#32
  let v36 := broadcastInDim S1600000 ![] bcast_S_S1600000 c_5
  let v37 := cmpi .slt src v36
  let c_6 : IVec S_ 32 := constantI S_ 32 100000#32
  let v38 := broadcastInDim S1600000 ![] bcast_S_S1600000 c_6
  let v39 := addi src v38
  let v40 := select v37 v39 src
  let v41 := broadcastInDim S1600000x1 ![0] bcast_S1600000_S1600000x1_0 v40
  let v42 := Host.gather gather_S100000_S1600000x1_S1600000_n_0_n_n_0_1_1 dinv v41
  let c_7 : IVec S_ 32 := constantI S_ 32 0#32
  let v43 := broadcastInDim S1600000 ![] bcast_S_S1600000 c_7
  let v44 := cmpi .slt dst v43
  let c_8 : IVec S_ 32 := constantI S_ 32 100000#32
  let v45 := broadcastInDim S1600000 ![] bcast_S_S1600000 c_8
  let v46 := addi dst v45
  let v47 := select v44 v46 dst
  let v48 := broadcastInDim S1600000x1 ![0] bcast_S1600000_S1600000x1_0 v47
  let v49 := Host.gather gather_S100000_S1600000x1_S1600000_n_0_n_n_0_1_1 dinv v48
  let v50 := mulf v42 v49
  let v51 := broadcastInDim S1600000x1 ![0] bcast_S1600000_S1600000x1_0 v50
  let v52 := broadcastInDim S1600000x64 ![0, 1] bcast_S1600000x1_S1600000x64_0_1 v51
  let v53 := mulf v35 v52
  let cst_9 : FVec Ideal S_ .f32 := constant (F := Ideal) S_ .f32 0x00000000#32
  let v54 := broadcastInDim S100000x64 ![] bcast_S_S100000x64 cst_9
  let v55 := broadcastInDim S1600000x1 ![0] bcast_S1600000_S1600000x1_0 dst
  let v56 := Host.scatterAdd scatter_S100000x64_S1600000x1_S1600000x64_1_0_0_1 v54 v55 v53
  let v57 := broadcastInDim S100000x1 ![0] bcast_S100000_S100000x1_0 deg
  let v58 := broadcastInDim S100000x64 ![0, 1] bcast_S100000x1_S100000x64_0_1 v57
  let v59 := Host.divf h v58
  let v60 := addf v56 v59
  let v61 := broadcastInDim S1x64 ![1] bcast_S64_S1x64_1 bias
  let v62 := broadcastInDim S100000x64 ![0, 1] bcast_S1x64_S100000x64_0_1 v61
  let v63 := addf v60 v62
  v63

end Cert.KernelIdeal.Stage

end
-- ==== Proof.KStages.lean ====
import proofs.«417558_j31903017075238_1_alg».proof.KernelIdeal
import proofs.«417558_j31903017075238_1_alg».proof.Proof.Gen.KernelIdeal
import proofs.«417558_j31903017075238_1_alg».proof.Proof.Spec
import proofs.«417558_j31903017075238_1_alg».proof.Proof.KConv

noncomputable section

namespace Cert.KernelIdeal.Stage

open Cert.KernelIdeal Cert.KernelIdeal.Gen Idealize.ShloMosaic Idealize.ShloMosaic.ValueIdx

def ids (b : IVec S100000 32) : IVec S100000x1 32 := shapeCast S100000x1 b shapeCasts_S100000_S100000x1

def row16 (p : FVec Ideal S16 .f32) : FVec Ideal S1x16 .f32 := shapeCast S1x16 p shapeCasts_S16_S1x16
def row64 (p : FVec Ideal S64 .f32) : FVec Ideal S1x64 .f32 := shapeCast S1x64 p shapeCasts_S64_S1x64
def row2 (p : FVec Ideal S2 .f32) : FVec Ideal S1x2 .f32 := shapeCast S1x2 p shapeCasts_S2_S1x2

def src (e : IVec S2x1600000 32) : IVec S1600000 32 :=
  shapeCast S1600000 (extractStridedSlice S1x1600000 ![0, 0] e slices_S2x1600000_S1x1600000_0_0) shapeCasts_S1x1600000_S1600000
def dst (e : IVec S2x1600000 32) : IVec S1600000 32 :=
  shapeCast S1600000 (extractStridedSlice S1x1600000 ![1, 0] e slices_S2x1600000_S1x1600000_1_0) shapeCasts_S1x1600000_S1600000

/-- Graph sizes, floored at one. -/
def counts (b : IVec S100000 32) : FVec Ideal S1000x1 .f32 :=
  maximumf (GraphNet.segSum (N := 100000) (G := 1000) (C := 1)
      (broadcastInDim S100000x1 ![] bcast_S_S100000x1 (constant (F := Ideal) S_ .f32 0x3F800000#32)) (ids b))
    (broadcastInDim S1000x1 ![] bcast_S_S1000x1 (constant (F := Ideal) S_ .f32 0x3F800000#32))

/-- Degrees, each node counted as its own neighbour. -/
def deg (e : IVec S2x1600000 32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst e))
      (broadcastInDim S1600000 ![] bcast_S_S1600000 (constant (F := Ideal) S_ .f32 0x3F800000#32)))
    (broadcastInDim S100000 ![] bcast_S_S100000 (constant (F := Ideal) S_ .f32 0x3F800000#32))
def dinv (e : IVec S2x1600000 32) : FVec Ideal S100000 .f32 := Host.rsqrt (deg e)

/-- Normalising the rows of each graph: centre them, divide by their spread, scale and shift. -/
def mean16 (x : FVec Ideal S100000x16 .f32) (b : IVec S100000 32) : FVec Ideal S1000x16 .f32 :=
  Host.divf (GraphNet.segSum (N := 100000) (G := 1000) (C := 16) x (ids b))
    (broadcastInDim S1000x16 ![0, 1] bcast_S1000x1_S1000x16_0_1 (counts b))
def centred16 (x : FVec Ideal S100000x16 .f32) (b : IVec S100000 32) (a : FVec Ideal S16 .f32) : FVec Ideal S100000x16 .f32 :=
  GraphNet.centre (N := 100000) (G := 1000) (C := 16) x (ids b) (mean16 x b) (row16 a)
def var16 (x : FVec Ideal S100000x16 .f32) (b : IVec S100000 32) (a : FVec Ideal S16 .f32) : FVec Ideal S1000x16 .f32 :=
  Host.divf (GraphNet.segSum (N := 100000) (G := 1000) (C := 16) (mulf (centred16 x b a) (centred16 x b a)) (ids b))
    (broadcastInDim S1000x16 ![0, 1] bcast_S1000x1_S1000x16_0_1 (counts b))
def gnorm16 (x : FVec Ideal S100000x16 .f32) (b : IVec S100000 32) (w bi a : FVec Ideal S16 .f32) : FVec Ideal S100000x16 .f32 :=
  GraphNet.scale (N := 100000) (G := 1000) (C := 16) (centred16 x b a) (ids b) (var16 x b a) (row16 w) (row16 bi)

def mean64 (x : FVec Ideal S100000x64 .f32) (b : IVec S100000 32) : FVec Ideal S1000x64 .f32 :=
  Host.divf (GraphNet.segSum (N := 100000) (G := 1000) (C := 64) x (ids b))
    (broadcastInDim S1000x64 ![0, 1] bcast_S1000x1_S1000x64_0_1 (counts b))
def centred64 (x : FVec Ideal S100000x64 .f32) (b : IVec S100000 32) (a : FVec Ideal S64 .f32) : FVec Ideal S100000x64 .f32 :=
  GraphNet.centre (N := 100000) (G := 1000) (C := 64) x (ids b) (mean64 x b) (row64 a)
def var64 (x : FVec Ideal S100000x64 .f32) (b : IVec S100000 32) (a : FVec Ideal S64 .f32) : FVec Ideal S1000x64 .f32 :=
  Host.divf (GraphNet.segSum (N := 100000) (G := 1000) (C := 64) (mulf (centred64 x b a) (centred64 x b a)) (ids b))
    (broadcastInDim S1000x64 ![0, 1] bcast_S1000x1_S1000x64_0_1 (counts b))
def gnorm64 (x : FVec Ideal S100000x64 .f32) (b : IVec S100000 32) (w bi a : FVec Ideal S64 .f32) : FVec Ideal S100000x64 .f32 :=
  GraphNet.scale (N := 100000) (G := 1000) (C := 64) (centred64 x b a) (ids b) (var64 x b a) (row64 w) (row64 bi)

def relu (x : FVec Ideal S100000x64 .f32) : FVec Ideal S100000x64 .f32 :=
  maximumf x (broadcastInDim S100000x64 ![] bcast_S_S100000x64 (constant (F := Ideal) S_ .f32 0x00000000#32))

def convRelu (h : FVec Ideal S100000x64 .f32) (e : IVec S2x1600000 32) (bias : FVec Ideal S64 .f32) : FVec Ideal S100000x64 .f32 :=
  relu (conv h (src e) (dst e) (dinv e) (deg e) bias)

def layer1 (x0 : FVec Ideal S100000x16 .f32) (e : IVec S2x1600000 32) (b : IVec S100000 32) (w0 b0 a0 : FVec Ideal S16 .f32)
    (W1 : FVec Ideal S16x64 .f32) (b1 : FVec Ideal S64 .f32) : FVec Ideal S100000x64 .f32 :=
  convRelu (GraphNet.mm (R := 100000) (K := 16) (M := 64) (gnorm16 x0 b w0 b0 a0) W1) e b1
def layerNext (x : FVec Ideal S100000x64 .f32) (e : IVec S2x1600000 32) (b : IVec S100000 32) (w bi a : FVec Ideal S64 .f32)
    (W : FVec Ideal S64x64 .f32) (bias : FVec Ideal S64 .f32) : FVec Ideal S100000x64 .f32 :=
  convRelu (GraphNet.mm (R := 100000) (K := 64) (M := 64) (gnorm64 x b w bi a) W) e bias

def pooled (x : FVec Ideal S100000x64 .f32) (b : IVec S100000 32) : FVec Ideal S1000x64 .f32 := mean64 x b

/-- Three normalise-and-convolve layers, the mean row per graph, the two-class head. -/
def net (x0 : FVec Ideal S100000x16 .f32) (e : IVec S2x1600000 32) (b : IVec S100000 32) (w0 b0 a0 : FVec Ideal S16 .f32)
    (W1 : FVec Ideal S16x64 .f32) (b1 w1 bi1 a1 : FVec Ideal S64 .f32) (W2 : FVec Ideal S64x64 .f32) (b2 w2 bi2 a2 : FVec Ideal S64 .f32)
    (W3 : FVec Ideal S64x64 .f32) (b3 : FVec Ideal S64 .f32) (Wd : FVec Ideal S64x64 .f32) (bd : FVec Ideal S64 .f32)
    (Wo : FVec Ideal S64x2 .f32) (bo : FVec Ideal S2 .f32) : FVec Ideal S1000x2 .f32 :=
  GraphNet.head (R := 1000) (K := 64) (M := 64) (C := 2)
    (pooled (layerNext (layerNext (layer1 x0 e b w0 b0 a0 W1 b1) e b w1 bi1 a1 W2 b2) e b w2 bi2 a2 W3 b3) b)
    Wd (row64 bd) Wo (row2 bo)

end Cert.KernelIdeal.Stage

end
-- ==== Proof.Reg.SegSum.lean ====
import Idealize.ShloMosaic.Lib.Pipeline.Value
import proofs.«417558_j31903017075238_1_alg».proof.Proof.Spec

noncomputable section

open Idealize.ShloMosaic Idealize.ShloMosaic.ValueIdx

namespace Cert.KernelIdeal.RegVal

/-- Entry (r, f) of the 2000-row block at row offset 2000·t is entry (2000·t + r, f) of the array. -/
theorem read_rows {n C : Nat} {α : Type} (X : (⟨2, ![n, C]⟩ : Shape).Idx → α) {off : Fin 2 → Nat} {t : Nat}
    (ho : off = ![2000 * t, 0]) (inb) (r : Fin 2000) (f : Fin C) (h : 2000 * t + r.val < n) :
    X ((Rect.unit off ![2000, C] inb : Rect ⟨2, ![n, C]⟩).emb (ix2 r f)) = X (ix2 ⟨2000 * t + r.val, h⟩ f) := by
  subst ho
  refine congrArg X (Shape.idx_ext₂ ?_ ?_) <;> rw [Rect.emb_apply]
  · exact congrArg (2000 * t + ·) (Nat.one_mul _)
  · exact (Nat.zero_add _).trans (Nat.one_mul _)

/-- The last write, when it covers every index, is what is read back. -/
theorem read_writes_unit_zero {sig : RefSig} {κ : Kind} {sp : Space} {Val : EltTy → Type} [∀ e, Nonempty (Val e)] {S : Shape}
    {e : EltTy} (v : View sig κ sp S e) (f) {off : Fin S.rank → Nat} (h : off = fun _ => 0) (inb) (w : S.Idx → Val e) (L) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

variable {C G N : Nat}

/-- What block s adds at (g, f): the rows 2000·s … 2000·s + 1999 with id g, summed in column f. -/
def blockSum (x : FVec Ideal (⟨2, ![100000, C]⟩ : Shape) .f32) (b : IVec (⟨2, ![100000, 1]⟩ : Shape) 32) (s : Nat)
    (g : Fin G) (f : Fin C) : EReal :=
  ∑ r : Fin 2000, if h : 2000 * s + r.val < 100000 then GraphNet.hot b ⟨_, h⟩ g.val * x (ix2 ⟨_, h⟩ f) else 0

/-- By induction the table after point n holds blocks 0 … n; the 50 blocks of 2000 rows are all the rows. -/
theorem segSum_of_steps (hN : N = 50) (x : FVec Ideal (⟨2, ![100000, C]⟩ : Shape) .f32)
    (b : IVec (⟨2, ![100000, 1]⟩ : Shape) 32) (xb : Fin N → FVec Ideal (⟨2, ![2000, C]⟩ : Shape) .f32)
    (ib : Fin N → IVec (⟨2, ![2000, 1]⟩ : Shape) 32)
    (hx : ∀ t r f h, xb t (ix2 r f) = x (ix2 ⟨2000 * t.val + r.val, h⟩ f))
    (hi : ∀ t r h, ib t (ix2 r 0) = b (ix2 ⟨2000 * t.val + r.val, h⟩ 0))
    (step : IVec (⟨2, ![2000, 1]⟩ : Shape) 32 → FVec Ideal (⟨2, ![2000, C]⟩ : Shape) .f32 →
      FVec Ideal (⟨2, ![G, C]⟩ : Shape) .f32 → FVec Ideal (⟨2, ![G, C]⟩ : Shape) .f32)
    (z : FVec Ideal (⟨2, ![G, C]⟩ : Shape) .f32)
    (hstep : ∀ ids y acc (g : Fin G) (f : Fin C), step ids y acc (ix2 g f)
      = acc (ix2 g f) + ∑ r : Fin 2000, (if ids (ix2 r 0) = BitVec.ofNat 32 g.val then (1 : EReal) else 0) * y (ix2 r f))
    (hz : ∀ j, z j = 0) (T : (n : Nat) → n < N → FVec Ideal (⟨2, ![G, C]⟩ : Shape) .f32)
    (h0 : ∀ t : Fin N, t.val % 50 = 0 → T t.val t.isLt = step (ib t) (xb t) z)
    (hs : ∀ (t : Fin N) (h : ¬t.val % 50 = 0), T t.val t.isLt = step (ib t) (xb t) (T (t.val - 1) (by omega)))
    (t : Fin N) (ht : t.val = 49) : T t.val t.isLt = GraphNet.segSum x b := by
  subst hN
  have blk : ∀ (s : Fin 50) (g : Fin G) (f : Fin C),
      ∑ r : Fin 2000, (if ib s (ix2 r 0) = BitVec.ofNat 32 g.val then (1 : EReal) else 0) * xb s (ix2 r f)
        = blockSum x b s.val g f := fun s g f => Finset.sum_congr rfl fun r _ => by
    have hb : 2000 * s.val + r.val < 100000 := by omega
    rw [dif_pos hb, hi s r hb, hx s r f hb]; rfl
  have acc : ∀ (n : Nat) (h : n < 50) (g : Fin G) (f : Fin C),
      T n h (ix2 g f) = ∑ s ∈ Finset.range (n + 1), blockSum x b s g f := by
    intro n
    induction n with
    | zero => intro h g f; rw [h0 ⟨0, h⟩ rfl, hstep, hz, zero_add, blk, Finset.sum_range_one]
    | succ n ih =>
      intro h g f
      rw [hs ⟨n + 1, h⟩ (by show ¬(n + 1) % 50 = 0; omega), hstep, blk, Finset.sum_range_succ _ (n + 1)]
      exact congrArg (· + blockSum x b (n + 1) g f) (ih (Nat.lt_of_succ_lt h) g f)
  obtain ⟨n, hn⟩ := t
  obtain rfl : n = 49 := ht
  funext j
  obtain ⟨g, f, rfl⟩ : ∃ (g : Fin G) (f : Fin C), j = ix2 g f := ⟨j 0, j 1, eq_ix2 j⟩
  rw [acc 49 hn g f, Finset.sum_range]
  refine Eq.trans ?_ ((Fintype.sum_prod_type _).symm.trans
    (Equiv.sum_comp (finProdFinEquiv : Fin 50 × Fin 2000 ≃ Fin 100000) fun n => GraphNet.hot b n g.val * x (ix2 n f)))
  refine Finset.sum_congr rfl fun s _ => Finset.sum_congr rfl fun r _ => ?_
  rw [dif_pos (by omega)]
  exact congrArg (fun p : Fin 100000 => GraphNet.hot b p g.val * x (ix2 p f)) (Fin.ext (Nat.add_comm _ _))

section Last
open Idealize.ShloMosaic.Pipeline Idealize.SL Idealize.SL.RA
variable {nD : Nat} {τ : Topo} {sig : RefSig} {Val : EltTy → Type} {Ix : Type} [DecidableEq Ix] {Name : Type}
  [DecidableEq Name] {U : Type} [URA U] {Lvl : Type} {Λ₀ : Idealize.SL.Sem.Labels} {cfg : Cfg sig Λ₀} {c : Dev nD}

/-- Only point 49 writes the array, through a block that covers it, so the array ends as that block. -/
theorem arrAt_of_last (dat : Dat τ Val Ix Name U Lvl cfg c) (w : Fin cfg.W) (hN : cfg.N = 50)
    (hfl : ∀ t, (cfg.win w).flush t = true ↔ t.val % 50 = 49) (G : Buf Val ((cfg.win w).arr.view.loc (c.tc : Thread nD τ)))
    (hG : ∀ t : Fin cfg.N, t.val = 49 → dat.flushed w t = ((cfg.win w).blk t).view.read Val G)
    (hc : ∀ (t : Fin cfg.N) i, i ∈ ((cfg.win w).blk t).view.set) : dat.arrAt w cfg.N = G :=
  let t : Fin cfg.N := ⟨49, hN ▸ (by decide : 49 < 50)⟩
  dat.arrAt_eq_of_cover w G (fun t h => hG t ((Nat.mod_eq_of_lt (hN ▸ t.isLt)).symm.trans ((hfl t).mp h)))
    fun i => ⟨t, (hfl t).mpr rfl, hc t i⟩

end Last

end Cert.KernelIdeal.RegVal
end
-- ==== Proof.LibDot.lean ====
import Idealize.ShloMosaic.Lib.StackMember

namespace GraphNet.LibDot

open Idealize.ShloMosaic Idealize.ShloMosaic.ValueIdx Idealize.ShloMosaic.StackMember

variable {m k n : Nat} {φ₁ φ₂ : FTy}

theorem zero2 : (![0, 0] : Fin 2 → Nat) = fun _ => 0 := funext fun a => by fin_cases a <;> rfl

/-- The dimension numbers of a `k×m` by `k×n` product contracted along axis 0 of both operands. -/
def colDims (k m n : Nat) : DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section Plain
variable (d : DotDims ⟨2, ![m, k]⟩ ⟨2, ![k, n]⟩ ⟨2, ![m, n]⟩) (hd : d = DotDims.plain m k n)
  (prec : Option ContractPrecision) (A : FVec Ideal ⟨2, ![m, k]⟩ φ₁) (B : FVec Ideal ⟨2, ![k, n]⟩ φ₂) (a : Fin m) (b : Fin n)
include hd

/-- The reference's plain product at an entry is the sum over the contracted coordinate. -/
theorem dotGeneral_plain : Host.dotGeneral d prec A B (ix2 a b) = ∑ c : Fin k, A (ix2 a c) * B (ix2 c b) :=
  hd ▸ dotGeneral_plain_apply prec A B a b

/-- So is the kernel's, whose zero accumulator adds nothing. -/
theorem matmul_plain :
    matmul d prec A B (constant ⟨2, ![m, n]⟩ .f32 0x00000000#32) (ix2 a b) = ∑ c : Fin k, A (ix2 a c) * B (ix2 c b) := by
  rw [matmul_zero_eq_dotGeneral, dotGeneral_plain d hd]

end Plain

/-- Contracted along axis 0 of both operands, entry (a, b) sums column a of A against column b of B. -/
theorem matmul_col (d : DotDims ⟨2, ![k, m]⟩ ⟨2, ![k, n]⟩ ⟨2, ![m, n]⟩) (hd : d = colDims k m n)
    (prec : Option ContractPrecision) (A : FVec Ideal ⟨2, ![k, m]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 c a) * B (ix2 c b) := by
  subst hd
  refine (Ideal.matmul_constant_zero_apply _ prec A B _).trans ?_
  rw [← Equiv.sum_comp (contrEquiv1 (colDims k m n) k rfl rfl).symm]
  refine Finset.sum_congr rfl fun c _ => ?_
  have hc := contrEquiv1_symm_val (colDims k m n) k rfl rfl c
  congr 2 <;> funext ax <;> apply Fin.ext <;> match ax with
    | ⟨0, _⟩ => simp [DotDims.lhsIdx, DotDims.rhsIdx, colDims]; exact hc
    | ⟨1, _⟩ => simp [DotDims.lhsIdx, DotDims.rhsIdx, colDims]; rfl

end GraphNet.LibDot
-- ==== Proof.Reg.OneHot.lean ====
import proofs.«417558_j31903017075238_1_alg».proof.Proof.Gen.KernelIdeal.Skeleton
import Idealize.ShloMosaic.Lib.ValueIdx
import Idealize.ShloMosaic.Lib.Pipeline.Value

noncomputable section

namespace Cert.KernelIdeal.RegVal

open Cert.KernelIdeal Cert.KernelIdeal.Gen Idealize.ShloMosaic Idealize.ShloMosaic.ValueIdx Idealize.SL.Sem

/-- The bit of an equality test, widened to a word and read as a signed integer, is 1 or 0. -/
theorem eqBit_toReal (x y : BitVec 32) :
    ((((IntOp.cmpi .eq x y).setWidth 32).toInt : ℝ) : EReal) = if x = y then (1 : EReal) else 0 := by
  by_cases h : x = y <;> simp [IntOp.cmpi, h, beq_eq_decide]

/-- The 0/1 matrix of a block's ids as every segment body builds it. -/
abbrev onehot (ids : IVec S2000x1 32) : FVec Ideal S2000x1000 .bf16 :=
  truncf .bf16 (sitofp (F := Ideal) .f32 (extui 32 (cmpi .eq
    (broadcastTo S2000x1000 (shapeCast S2000x1 ids shapeCasts_S2000x1_S2000x1) broadcasts_S2000x1_S2000x1000)
    (iota .tc S2000x1000 32 [1] iota_S2000x1000_d1_w32)) natLt_1_32)) bitsLt_bf16_f32

/-- Entry (r, g) compares row r's id, spread along the columns, with the column number g. -/
theorem onehot_flat_entry (ids : IVec S2000x1 32) (r : Fin 2000) (g : Fin 1000) :
    (truncf .bf16 (sitofp (F := Ideal) .f32 (extui 32 (cmpi .eq
      (broadcastTo S2000x1000 ids broadcasts_S2000x1_S2000x1000)
      (iota .tc S2000x1000 32 [1] iota_S2000x1000_d1_w32)) natLt_1_32)) bitsLt_bf16_f32 : FVec Ideal S2000x1000 .bf16) (ix2 r g)
      = if ids (ix2 r 0) = BitVec.ofNat 32 g.val then (1 : EReal) else 0 := by
  refine Eq.trans ?_ (eqBit_toReal _ _)
  show ((((IntOp.cmpi .eq (broadcastTo S2000x1000 ids broadcasts_S2000x1_S2000x1000 (ix2 r g))
    (iota .tc S2000x1000 32 [1] iota_S2000x1000_d1_w32 (ix2 r g))).setWidth 32).toInt : ℝ) : EReal) = _
  rw [iota_single_apply, broadcastTo_apply ids _ (ix2 r g) (ix2 r 0) fun a => match a with
    | ⟨0, _⟩ => (if_neg (show ¬(2000 : Nat) = 1 by decide)).symm
    | ⟨1, _⟩ => (if_pos rfl).symm]

theorem onehot_entry (ids : IVec S2000x1 32) (r : Fin 2000) (g : Fin 1000) :
    (truncf .bf16 (sitofp (F := Ideal) .f32 (extui 32 (cmpi .eq
      (broadcastTo S2000x1000 (shapeCast S2000x1 ids shapeCasts_S2000x1_S2000x1) broadcasts_S2000x1_S2000x1000)
      (iota .tc S2000x1000 32 [1] iota_S2000x1000_d1_w32)) natLt_1_32)) bitsLt_bf16_f32 : FVec Ideal S2000x1000 .bf16) (ix2 r g)
      = if ids (ix2 r 0) = BitVec.ofNat 32 g.val then (1 : EReal) else 0 := by
  rw [shapeCast_self]
  exact onehot_flat_entry ids r g

theorem onehot_apply (ids : IVec S2000x1 32) (r : Fin 2000) (g : Fin 1000) :
    onehot ids (ix2 r g) = if ids (ix2 r 0) = BitVec.ofNat 32 g.val then (1 : EReal) else 0 :=
  onehot_entry ids r g

end Cert.KernelIdeal.RegVal

end
-- ==== Proof.Reg.SegStep.lean ====
import proofs.«417558_j31903017075238_1_alg».proof.Proof.LibDot
import proofs.«417558_j31903017075238_1_alg».proof.Proof.Reg.OneHot

noncomputable section

namespace Cert.KernelIdeal.RegVal

open Cert.KernelIdeal Cert.KernelIdeal.Gen Idealize.ShloMosaic Idealize.ShloMosaic.ValueIdx Idealize.SL.Sem

/-- The step at entry (g, f): the product with the transposed 0/1 matrix adds the block's rows with id g (y is x as the body spells it). -/
theorem seg_step {C : Nat} (d : DotDims S2000x1000 ⟨2, ![2000, C]⟩ ⟨2, ![1000, C]⟩) (hd : d = GraphNet.LibDot.colDims 2000 1000 C)
    (ids : IVec S2000x1 32) (x y : FVec Ideal ⟨2, ![2000, C]⟩ .f32) (hy : y = x) (acc : FVec Ideal ⟨2, ![1000, C]⟩ .f32)
    (hc hb) (g : Fin 1000) (f : Fin C) :
    addf (shapeCast _ acc hc) (matmul d none (onehot ids) (truncf .bf16 y hb) (constant _ .f32 0x00000000#32)) (ix2 g f)
      = acc (ix2 g f) + ∑ r : Fin 2000, (if ids (ix2 r 0) = BitVec.ofNat 32 g.val then (1 : EReal) else 0) * x (ix2 r f) := by
  subst hy
  rw [shapeCast_self]
  refine (addf_apply _ _ _).trans (congrArg (acc (ix2 g f) + ·) ?_)
  refine (GraphNet.LibDot.matmul_col d hd none _ _ g f).trans (Finset.sum_congr rfl fun r _ => ?_)
  exact congrArg (· * y (ix2 r f)) (onehot_apply ids r g)

end Cert.KernelIdeal.RegVal

end
-- ==== Proof.Reg.LibRows.lean ====
import proofs.«417558_j31903017075238_1_alg».proof.Proof.LibDot
import Idealize.ShloMosaic.Lib.Ring
import Idealize.ShloMosaic.Lib.Pipeline.Value

namespace GraphNet.LibRows

open Idealize.ShloMosaic

variable {N C R : Nat} {Val : EltTy → Type} {e : EltTy}

/-- A load of all of a two-axis buffer reads its contents. -/
theorem ld_whole (inb) (X : (⟨2, ![N, C]⟩ : Shape).Idx → Val e) :
    View.ld X (Rect.unit ![0, 0] (⟨2, ![N, C]⟩ : Shape).size inb) = X :=
  View.ld_unit_zero LibDot.zero2 inb X

/-- One store over all of a two-axis buffer leaves what it stored. -/
theorem canon_whole [∀ e, Nonempty (Val e)] (inb) (X : (⟨2, ![N, C]⟩ : Shape).Idx → Val e) :
    View.canon [(⟨Rect.unit ![0, 0] (⟨2, ![N, C]⟩ : Shape).size inb, X⟩ : View.Piece Val _ e)] = X :=
  View.canon_unit_zero LibDot.zero2 inb X

/-- Blocks of R rows, block t starting at row R·t and spanning every column, cover NB·R rows: row n lies in block n / R. -/
theorem rows_cover {NB : Nat} (off : Fin NB → Fin 2 → Nat)
    (inb : ∀ t a, off t a + (![R, C] : Fin 2 → Nat) a ≤ (⟨2, ![N, C]⟩ : Shape).size a)
    (h0 : ∀ t, off t 0 = R * t.val) (h1 : ∀ t, off t 1 = 0) (hN : NB * R = N) (i : (⟨2, ![N, C]⟩ : Shape).Idx) :
    ∃ t, i ∈ (Rect.unit (off t) ![R, C] (inb t)).set := by
  have h := Finset.mem_univ i
  rw [← Ring.lead_cover (s := ⟨2, ![N, C]⟩) 0 R off ![R, C] inb h0
    (fun t a ha => match a with | ⟨0, _⟩ => absurd rfl ha | ⟨1, _⟩ => h1 t) rfl
    (fun a ha => match a with | ⟨0, _⟩ => absurd rfl ha | ⟨1, _⟩ => rfl) hN, Finset.mem_biUnion] at h
  exact h.imp fun t ht => ht.2

end GraphNet.LibRows
-- ==== Proof.Reg.Seg0.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg0

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid0.N, (fun a => win0_0.index t a * win0_0.size a) = ![2000 * t.val, 0]
    ∧ (fun a => win0_1.index t a * win0_1.size a) = ![2000 * t.val, 0]
    ∧ (fun a => win0_2.index t a * win0_2.size a) = fun _ => 0 := by decide +kernel

/-- The first point stores the step over the cleared table. -/
theorem first (t : Fin cfg0.N) (h : t.val % 50 = 0) :
    outsAt0 V c t.val t.isLt = k0_pay2 (iblk0 V c 1 t) (iblk0 V c 0 t) (k0_pay1 (F := Ideal)) := by
  rw [outsAt0_A V c t h]
  unfold out0_A_2 kernelRun0_A
  sl_unfold_words
  rw [read_writes_unit_zero _ _ zero2]
  simp only [View.readCov_unit_zero (S := S1000x1) _ zero2, View.readAt_eq_ld, (hs0_0 t).read_unread,
    (hs0_1 t).read_unread]
  congr 1 <;> exact ld_whole _ _

/-- A later point stores the step over what the point before left. -/
theorem later (t : Fin cfg0.N) (h : ¬t.val % 50 = 0) :
    outsAt0 V c t.val t.isLt = k0_pay2 (iblk0 V c 1 t) (iblk0 V c 0 t) (outsAt0 V c (t.val - 1) (by omega)) := by
  rw [outsAt0_B V c t h]
  unfold out0_B_2 kernelRun0_B
  rw [read_writes_unit_zero _ _ zero2]
  simp only [View.readAt_eq_ld, (hs0_0 t).read_unread, (hs0_1 t).read_unread, (hs0_2 t).read_unread]
  congr 1 <;> exact ld_whole _ _

end Seg0

/-- After the last point the output array is the segment sum of the two input arrays. -/
theorem seg0 (V : (c : Dev nD) → (b : Ref sig .tc) → Buf (Elt Ideal) ((c : Thread nD τ).loc b)) (c : Dev nD) :
    (dat0 (F := Ideal) V c).arrAt 2 cfg0.N
      = GraphNet.segSum (N := 100000) (G := 1000) (C := 1) (V c (Pipeline.arrRef spec0 0)) (V c (Pipeline.arrRef spec0 1)) :=
  arrAt_of_last (dat0 V c) 2 N_0 flush0_2 _
    (fun t h => (segSum_of_steps N_0 _ _ (iblk0 V c 0) (iblk0 V c 1) (fun t r f h => read_rows _ (Seg0.offs t).1 _ r f h)
      (fun t r h => read_rows _ (Seg0.offs t).2.1 _ r 0 h) (k0_pay2 (F := Ideal)) k0_pay1
      (fun ids x acc g f => seg_step dot_S2000x1000_S2000x1_S1000x1_0_0_1_1_n_n rfl ids x _ (shapeCast_self x _) acc _ _ g f)
      (fun _ => Ideal.ofBits_zero_f32) (outsAt0 V c) (Seg0.first V c) (Seg0.later V c) t h).trans
      (Memref.read_access_unit_zero (Elt Ideal) main_v6 (Seg0.offs t).2.2 _ _).symm)
    fun t i => by rw [View.set_slice_whole]; exact View.mem_set_unit_zero (Seg0.offs t).2.2 _ i

end Cert.KernelIdeal.RegVal

end
-- ==== Proof.Reg.Seg1.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg1

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid1.N, (fun a => win1_0.index t a * win1_0.size a) = ![2000 * t.val, 0]
    ∧ (fun a => win1_1.index t a * win1_1.size a) = ![2000 * t.val, 0]
    ∧ (fun a => win1_2.index t a * win1_2.size a) = fun _ => 0 := by decide +kernel

/-- The first point stores the step over the cleared table. -/
theorem first (t : Fin cfg1.N) (h : t.val % 50 = 0) :
    outsAt1 V c t.val t.isLt = k1_pay2 (iblk1 V c 1 t) (iblk1 V c 0 t) (k1_pay1 (F := Ideal)) := by
  rw [outsAt1_A V c t h]
  unfold out1_A_2 kernelRun1_A
  sl_unfold_words
  rw [read_writes_unit_zero _ _ zero2]
  simp only [View.readCov_unit_zero (S := S1000x16) _ zero2, View.readAt_eq_ld, (hs1_0 t).read_unread,
    (hs1_1 t).read_unread]
  congr 1 <;> exact ld_whole _ _

/-- A later point stores the step over what the point before left. -/
theorem later (t : Fin cfg1.N) (h : ¬t.val % 50 = 0) :
    outsAt1 V c t.val t.isLt = k1_pay2 (iblk1 V c 1 t) (iblk1 V c 0 t) (outsAt1 V c (t.val - 1) (by omega)) := by
  rw [outsAt1_B V c t h]
  unfold out1_B_2 kernelRun1_B
  rw [read_writes_unit_zero _ _ zero2]
  simp only [View.readAt_eq_ld, (hs1_0 t).read_unread, (hs1_1 t).read_unread, (hs1_2 t).read_unread]
  congr 1 <;> exact ld_whole _ _

end Seg1

/-- After the last point the output array is the segment sum of the two input arrays. -/
theorem seg1 (V : (c : Dev nD) → (b : Ref sig .tc) → Buf (Elt Ideal) ((c : Thread nD τ).loc b)) (c : Dev nD) :
    (dat1 (F := Ideal) V c).arrAt 2 cfg1.N
      = GraphNet.segSum (N := 100000) (G := 1000) (C := 16) (V c (Pipeline.arrRef spec1 0)) (V c (Pipeline.arrRef spec1 1)) :=
  arrAt_of_last (dat1 V c) 2 N_1 flush1_2 _
    (fun t h => (segSum_of_steps N_1 _ _ (iblk1 V c 0) (iblk1 V c 1) (fun t r f h => read_rows _ (Seg1.offs t).1 _ r f h)
      (fun t r h => read_rows _ (Seg1.offs t).2.1 _ r 0 h) (k1_pay2 (F := Ideal)) k1_pay1
      (fun ids x acc g f => seg_step dot_S2000x1000_S2000x16_S1000x16_0_0_1_1_n_n rfl ids x x rfl acc _ _ g f)
      (fun _ => Ideal.ofBits_zero_f32) (outsAt1 V c) (Seg1.first V c) (Seg1.later V c) t h).trans
      (Memref.read_access_unit_zero (Elt Ideal) main_v19 (Seg1.offs t).2.2 _ _).symm)
    fun t i => by rw [View.set_slice_whole]; exact View.mem_set_unit_zero (Seg1.offs t).2.2 _ i

end Cert.KernelIdeal.RegVal

end
-- ==== Proof.Reg.LibNorm.lean ====
import proofs.«417558_j31903017075238_1_alg».proof.Proof.Spec
import proofs.«417558_j31903017075238_1_alg».proof.Proof.LibDot
import Idealize.ShloMosaic.Lib.ValueLayout
import Idealize.ShloMosaic.Lib.Pipeline.Value
import Idealize.ShloMosaic.PureOps.Ideal.Laws

noncomputable section

namespace Cert.KernelIdeal.RegVal

open Idealize.ShloMosaic Idealize.ShloMosaic.ValueIdx Idealize.SL.Sem

variable {C : Nat} (d : DotDims ⟨2, ![2000, 1000]⟩ ⟨2, ![1000, C]⟩ ⟨2, ![2000, C]⟩) (hd : d = DotDims.plain 2000 1000 C)
  (hb : (⟨2, ![1, C]⟩ : Shape).Broadcasts ⟨2, ![2000, C]⟩) (hbits : FTy.bits .bf16 < FTy.bits .f32)
  (X : FVec Ideal ⟨2, ![100000, C]⟩ .f32) (B : IVec ⟨2, ![100000, 1]⟩ 32) (T : FVec Ideal ⟨2, ![1000, C]⟩ .f32)
  (P Q : FVec Ideal ⟨2, ![1, C]⟩ .f32) (x : FVec Ideal ⟨2, ![2000, C]⟩ .f32) (ids : IVec ⟨2, ![2000, 1]⟩ 32)
  (T' : FVec Ideal ⟨2, ![1000, C]⟩ .f32) (P' Q' : FVec Ideal ⟨2, ![1, C]⟩ .f32) (hT : T' = T) (hP : P' = P) (hQ : Q' = Q)
  (H : FVec Ideal ⟨2, ![2000, 1000]⟩ .bf16)
  (hH : ∀ r g, H (ix2 r g) = if ids (ix2 r 0) = BitVec.ofNat 32 g.val then 1 else 0)
  (t : Nat) (j : (⟨2, ![2000, C]⟩ : Shape).Idx) (i : (⟨2, ![100000, C]⟩ : Shape).Idx)
  (hi0 : (i 0).val = 2000 * t + (j 0).val) (hi1 : (i 1).val = (j 1).val)
  (hx : ∀ (y : (⟨2, ![2000, C]⟩ : Shape).Idx) (k : (⟨2, ![100000, C]⟩ : Shape).Idx),
    (k 0).val = 2000 * t + (y 0).val → (k 1).val = (y 1).val → x y = X k)
  (hids : ∀ (y : (⟨2, ![2000, 1]⟩ : Shape).Idx) (k : (⟨2, ![100000, 1]⟩ : Shape).Idx),
    (k 0).val = 2000 * t + (y 0).val → (k 1).val = (y 1).val → ids y = B k)

include hd hH in
/-- The product of the 0/1 matrix "row r has id g" with a table reads the table at each row's id. -/
theorem onehot_mm (r : Fin 2000) (f : Fin C) :
    matmul d none H (truncf .bf16 T hbits) (constant ⟨2, ![2000, C]⟩ .f32 0x00000000#32) (ix2 r f)
      = ∑ g : Fin 1000, (if ids (ix2 r 0) = BitVec.ofNat 32 g.val then 1 else 0) * T (ix2 g f) :=
  (GraphNet.LibDot.matmul_plain d hd none _ _ r f).trans
    (Finset.sum_congr rfl fun g _ => congrArg (· * T (ix2 g f)) (hH r g))

include hd hH hT hP hi0 hi1 hx hids in
/-- Rows 2000·t … of x − P · (H · T), H the 0/1 matrix of the rows' ids, are the same rows of the centred array. -/
theorem centre_entry :
    subf x (mulf (broadcastTo ⟨2, ![2000, C]⟩ P' hb) (matmul d none H (truncf .bf16 T' hbits)
        (constant ⟨2, ![2000, C]⟩ .f32 0x00000000#32))) j
      = GraphNet.centre X B T P i := by
  subst T' P'
  obtain ⟨r, f, rfl⟩ : ∃ (r : Fin 2000) (f : Fin C), j = ix2 r f := ⟨j 0, j 1, eq_ix2 j⟩
  obtain ⟨n, f', rfl⟩ : ∃ (n : Fin 100000) (f' : Fin C), i = ix2 n f' := ⟨i 0, i 1, eq_ix2 i⟩
  obtain rfl : f = f' := Fin.ext hi1.symm
  rw [subf_apply, mulf_apply, broadcastTo_1b_ab_apply, onehot_mm d hd hbits T ids H hH, hx _ (ix2 n f) hi0 rfl,
    hids (ix2 r 0) (ix2 n 0) hi0 rfl]
  rfl

include hd hH hT hP hQ hi0 hi1 hx hids in
/-- Rows 2000·t … of P · (x · (H · T + ε)^(−1/2)) + Q are the same rows of the rescaled array. -/
theorem scale_entry :
    addf (mulf (broadcastTo ⟨2, ![2000, C]⟩ P' hb) (mulf x (rsqrt (addf (matmul d none H (truncf .bf16 T' hbits)
        (constant ⟨2, ![2000, C]⟩ .f32 0x00000000#32)) (broadcast ⟨2, ![2000, C]⟩ (Scalar.ofBits .f32 0x3727C5AC#32))))))
        (broadcastTo ⟨2, ![2000, C]⟩ Q' hb) j
      = GraphNet.scale X B T P Q i := by
  subst T' P' Q'
  obtain ⟨r, f, rfl⟩ : ∃ (r : Fin 2000) (f : Fin C), j = ix2 r f := ⟨j 0, j 1, eq_ix2 j⟩
  obtain ⟨n, f', rfl⟩ : ∃ (n : Fin 100000) (f' : Fin C), i = ix2 n f' := ⟨i 0, i 1, eq_ix2 i⟩
  obtain rfl : f = f' := Fin.ext hi1.symm
  rw [addf_apply, mulf_apply, mulf_apply, broadcastTo_1b_ab_apply, broadcastTo_1b_ab_apply]
  show _ * (_ * Ideal.rsqrt (matmul d none H (truncf .bf16 T hbits)
    (constant ⟨2, ![2000, C]⟩ .f32 0x00000000#32) (ix2 r f) + _)) + _ = _
  rw [onehot_mm d hd hbits T ids H hH, hx _ (ix2 n f) hi0 rfl, hids (ix2 r 0) (ix2 n 0) hi0 rfl]
  rfl

end Cert.KernelIdeal.RegVal

end
-- ==== Proof.Reg.Centre2.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem c2_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (∀ a, win2_2.index t a = 0) ∧ (∀ a, win2_3.index t a = 0)
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b)) (c : Dev nD) (t : Fin cfg2.N)

/-- A window that sits at block 0 of an array of its own size holds the whole array. -/
theorem c2_whole :
    iblk2 V c 2 t = V c (Pipeline.arrRef spec2 2)
    ∧ iblk2 V c 3 t = V c (Pipeline.arrRef spec2 3) :=
  ⟨funext fun y => congrArg (V c (Pipeline.arrRef spec2 2)) (funext fun a =>
    Fin.ext (win2_2.rect_emb_val_of_index_zero t a ((c2_idx t).2.2.1 a) y)),
   funext fun y => congrArg (V c (Pipeline.arrRef spec2 3)) (funext fun a =>
    Fin.ext (win2_3.rect_emb_val_of_index_zero t a ((c2_idx t).2.2.2.1 a) y))⟩

/-- A window at block (t, 0) holds rows 2000·t … of its array. -/
theorem c2_rows :
    (∀ (y : S2000x16.Idx) (k : S100000x16.Idx), (k 0).val = 2000 * t.val + (y 0).val → (k 1).val = (y 1).val →
      iblk2 V c 0 t y = V c (Pipeline.arrRef spec2 0) k)
    ∧ ∀ (y : S2000x1.Idx) (k : S100000x1.Idx), (k 0).val = 2000 * t.val + (y 0).val → (k 1).val = (y 1).val →
      iblk2 V c 1 t y = V c (Pipeline.arrRef spec2 1) k := by
  obtain ⟨⟨a0, b0⟩, ⟨a1, b1⟩, -⟩ := c2_idx t
  exact ⟨fun y k h0 h1 => congrArg (V c (Pipeline.arrRef spec2 0)) (Shape.idx_ext₂
      (by show win2_0.index t (0 : Fin 2) * 2000 + 1 * _ = _; omega)
      (by show win2_0.index t (1 : Fin 2) * 16 + 1 * _ = _; omega)),
    fun y k h0 h1 => congrArg (V c (Pipeline.arrRef spec2 1)) (Shape.idx_ext₂
      (by show win2_1.index t (0 : Fin 2) * 2000 + 1 * _ = _; omega)
      (by show win2_1.index t (1 : Fin 2) * 1 + 1 * _ = _; omega))⟩

/-- What point t writes back is its rows of the centred array. -/
theorem c2_flush :
    (dat2 (F := Ideal) V c).flushed 4 t = ((cfg2.win 4).blk t).view.read (Elt Ideal)
      (GraphNet.centre (N := 100000) (G := 1000) (C := 16) (V c (Pipeline.arrRef spec2 0)) (V c (Pipeline.arrRef spec2 1))
        (V c (Pipeline.arrRef spec2 2)) (V c (Pipeline.arrRef spec2 3))) := by
  have ho := (c2_idx t).2.2.2.2
  show (cfg2.win 4).cut (grid2.coords t) ((dat2 V c).after 4 t) = _
  simp only [after2_4, out2_4, LibRows.canon_whole, LibRows.ld_whole, k2_pay1, shapeCast_self]
  funext j
  exact centre_entry (C := 16) _ rfl _ _ (V c (Pipeline.arrRef spec2 0)) (V c (Pipeline.arrRef spec2 1))
    (V c (Pipeline.arrRef spec2 2)) (V c (Pipeline.arrRef spec2 3)) _ _ _ _
    (c2_whole V c t).1 (c2_whole V c t).2
    _ (onehot_flat_entry _) t.val j (((cfg2.win 4).blk t).view.emb j)
    (by show win2_4.index t (0 : Fin 2) * 2000 + 1 * _ = _; omega)
    (by show win2_4.index t (1 : Fin 2) * 16 + 1 * _ = _; omega)
    (c2_rows V c t).1 (c2_rows V c t).2

/-- Row n lies in the block of point n / 2000. -/
theorem c2_cover (i : S100000x16.Idx) :
    ∃ t : Fin cfg2.N, (cfg2.win 4).flush t = true ∧ i ∈ ((cfg2.win 4).blk t).view.set := by
  obtain ⟨t, ht⟩ := LibRows.rows_cover (NB := cfg2.N) (R := 2000) (fun t a => win2_4.index t a * S2000x16.size a)
    (fun t a => Pipeline.Clip.inb (win2_4.hclip (grid2.coords t) a))
    (fun t => by show _ * 2000 = _; rw [(c2_idx t).2.2.2.2.1]; omega)
    (fun t => by show _ * 16 = _; rw [(c2_idx t).2.2.2.2.2]) (by show grid2.N * 2000 = _; rw [N_2]) i
  refine ⟨t, flush2_4 t, ?_⟩
  rw [show ((cfg2.win 4).blk t).view.set = (win2_4.rect t).set from View.set_slice_whole _ _]
  exact ht

theorem centre2 :
    (dat2 (F := Ideal) V c).arrAt 4 cfg2.N
      = GraphNet.centre (N := 100000) (G := 1000) (C := 16) (V c (Pipeline.arrRef spec2 0)) (V c (Pipeline.arrRef spec2 1))
          (V c (Pipeline.arrRef spec2 2)) (V c (Pipeline.arrRef spec2 3)) :=
  (dat2 (F := Ideal) V c).arrAt_eq_of_cover 4 _ (fun t _ => c2_flush V c t) c2_cover

end Cert.KernelIdeal.RegVal

end
-- ==== Proof.Reg.Seg3.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg3

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid3.N, (fun a => win3_0.index t a * win3_0.size a) = ![2000 * t.val, 0]
    ∧ (fun a => win3_1.index t a * win3_1.size a) = ![2000 * t.val, 0]
    ∧ (fun a => win3_2.index t a * win3_2.size a) = fun _ => 0 := by decide +kernel

/-- The first point stores the step over the cleared table. -/
theorem first (t : Fin cfg3.N) (h : t.val % 50 = 0) :
    outsAt3 V c t.val t.isLt = k3_pay2 (iblk3 V c 1 t) (iblk3 V c 0 t) (k3_pay1 (F := Ideal)) := by
  rw [outsAt3_A V c t h]
  unfold out3_A_2 kernelRun3_A
  sl_unfold_words
  rw [read_writes_unit_zero _ _ zero2]
  simp only [View.readCov_unit_zero (S := S1000x16) _ zero2, View.readAt_eq_ld, (hs3_0 t).read_unread,
    (hs3_1 t).read_unread]
  congr 1 <;> exact ld_whole _ _

/-- A later point stores the step over what the point before left. -/
theorem later (t : Fin cfg3.N) (h : ¬t.val % 50 = 0) :
    outsAt3 V c t.val t.isLt = k3_pay2 (iblk3 V c 1 t) (iblk3 V c 0 t) (outsAt3 V c (t.val - 1) (by omega)) := by
  rw [outsAt3_B V c t h]
  unfold out3_B_2 kernelRun3_B
  rw [read_writes_unit_zero _ _ zero2]
  simp only [View.readAt_eq_ld, (hs3_0 t).read_unread, (hs3_1 t).read_unread, (hs3_2 t).read_unread]
  congr 1 <;> exact ld_whole _ _

end Seg3

/-- After the last point the output array is the segment sum of the two input arrays. -/
theorem seg3 (V : (c : Dev nD) → (b : Ref sig .tc) → Buf (Elt Ideal) ((c : Thread nD τ).loc b)) (c : Dev nD) :
    (dat3 (F := Ideal) V c).arrAt 2 cfg3.N
      = GraphNet.segSum (N := 100000) (G := 1000) (C := 16) (V c (Pipeline.arrRef spec3 0)) (V c (Pipeline.arrRef spec3 1)) :=
  arrAt_of_last (dat3 V c) 2 N_3 flush3_2 _
    (fun t h => (segSum_of_steps N_3 _ _ (iblk3 V c 0) (iblk3 V c 1) (fun t r f h => read_rows _ (Seg3.offs t).1 _ r f h)
      (fun t r h => read_rows _ (Seg3.offs t).2.1 _ r 0 h) (k3_pay2 (F := Ideal)) k3_pay1
      (fun ids x acc g f => seg_step dot_S2000x1000_S2000x16_S1000x16_0_0_1_1_n_n rfl ids x _ (shapeCast_self x _) acc _ _ g f)
      (fun _ => Ideal.ofBits_zero_f32) (outsAt3 V c) (Seg3.first V c) (Seg3.later V c) t h).trans
      (Memref.read_access_unit_zero (Elt Ideal) main_v24 (Seg3.offs t).2.2 _ _).symm)
    fun t i => by rw [View.set_slice_whole]; exact View.mem_set_unit_zero (Seg3.offs t).2.2 _ i

end Cert.KernelIdeal.RegVal

end
-- ==== Proof.Reg.Scale4.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem scale4_idx : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (∀ a, win4_2.index t a = 0) ∧ (∀ a, win4_3.index t a = 0) ∧ (∀ a, win4_4.index t a = 0)
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b)) (c : Dev nD) (t : Fin cfg4.N)

/-- A window that sits at block 0 of an array of its own size holds the whole array. -/
theorem scale4_whole :
    iblk4 V c 2 t = V c (Pipeline.arrRef spec4 2)
    ∧ iblk4 V c 3 t = V c (Pipeline.arrRef spec4 3)
    ∧ iblk4 V c 4 t = V c (Pipeline.arrRef spec4 4) :=
  ⟨funext fun y => congrArg (V c (Pipeline.arrRef spec4 2)) (funext fun a =>
    Fin.ext (win4_2.rect_emb_val_of_index_zero t a ((scale4_idx t).2.2.1 a) y)),
   funext fun y => congrArg (V c (Pipeline.arrRef spec4 3)) (funext fun a =>
    Fin.ext (win4_3.rect_emb_val_of_index_zero t a ((scale4_idx t).2.2.2.1 a) y)),
   funext fun y => congrArg (V c (Pipeline.arrRef spec4 4)) (funext fun a =>
    Fin.ext (win4_4.rect_emb_val_of_index_zero t a ((scale4_idx t).2.2.2.2.1 a) y))⟩

/-- A window at block (t, 0) holds rows 2000·t … of its array. -/
theorem scale4_rows :
    (∀ (y : S2000x16.Idx) (k : S100000x16.Idx), (k 0).val = 2000 * t.val + (y 0).val → (k 1).val = (y 1).val →
      iblk4 V c 0 t y = V c (Pipeline.arrRef spec4 0) k)
    ∧ ∀ (y : S2000x1.Idx) (k : S100000x1.Idx), (k 0).val = 2000 * t.val + (y 0).val → (k 1).val = (y 1).val →
      iblk4 V c 1 t y = V c (Pipeline.arrRef spec4 1) k := by
  obtain ⟨⟨a0, b0⟩, ⟨a1, b1⟩, -⟩ := scale4_idx t
  exact ⟨fun y k h0 h1 => congrArg (V c (Pipeline.arrRef spec4 0)) (Shape.idx_ext₂
      (by show win4_0.index t (0 : Fin 2) * 2000 + 1 * _ = _; omega)
      (by show win4_0.index t (1 : Fin 2) * 16 + 1 * _ = _; omega)),
    fun y k h0 h1 => congrArg (V c (Pipeline.arrRef spec4 1)) (Shape.idx_ext₂
      (by show win4_1.index t (0 : Fin 2) * 2000 + 1 * _ = _; omega)
      (by show win4_1.index t (1 : Fin 2) * 1 + 1 * _ = _; omega))⟩

/-- What point t writes back is its rows of the rescaled array. -/
theorem scale4_flush :
    (dat4 (F := Ideal) V c).flushed 5 t = ((cfg4.win 5).blk t).view.read (Elt Ideal)
      (GraphNet.scale (N := 100000) (G := 1000) (C := 16) (V c (Pipeline.arrRef spec4 0)) (V c (Pipeline.arrRef spec4 1))
        (V c (Pipeline.arrRef spec4 2)) (V c (Pipeline.arrRef spec4 3)) (V c (Pipeline.arrRef spec4 4))) := by
  have ho := (scale4_idx t).2.2.2.2.2
  show (cfg4.win 5).cut (grid4.coords t) ((dat4 V c).after 5 t) = _
  simp only [after4_5, out4_5, LibRows.canon_whole, LibRows.ld_whole, k4_pay1, shapeCast_self]
  funext j
  exact scale_entry (C := 16) _ rfl _ _ (V c (Pipeline.arrRef spec4 0)) (V c (Pipeline.arrRef spec4 1))
    (V c (Pipeline.arrRef spec4 2)) (V c (Pipeline.arrRef spec4 3)) (V c (Pipeline.arrRef spec4 4)) _ _ _ _ _
    (scale4_whole V c t).1 (scale4_whole V c t).2.1 (scale4_whole V c t).2.2
    _ (onehot_flat_entry _) t.val j (((cfg4.win 5).blk t).view.emb j)
    (by show win4_5.index t (0 : Fin 2) * 2000 + 1 * _ = _; omega)
    (by show win4_5.index t (1 : Fin 2) * 16 + 1 * _ = _; omega)
    (scale4_rows V c t).1 (scale4_rows V c t).2

/-- Row n lies in the block of point n / 2000. -/
theorem scale4_cover (i : S100000x16.Idx) :
    ∃ t : Fin cfg4.N, (cfg4.win 5).flush t = true ∧ i ∈ ((cfg4.win 5).blk t).view.set := by
  obtain ⟨t, ht⟩ := LibRows.rows_cover (NB := cfg4.N) (R := 2000) (fun t a => win4_5.index t a * S2000x16.size a)
    (fun t a => Pipeline.Clip.inb (win4_5.hclip (grid4.coords t) a))
    (fun t => by show _ * 2000 = _; rw [(scale4_idx t).2.2.2.2.2.1]; omega)
    (fun t => by show _ * 16 = _; rw [(scale4_idx t).2.2.2.2.2.2]) (by show grid4.N * 2000 = _; rw [N_4]) i
  refine ⟨t, flush4_5 t, ?_⟩
  rw [show ((cfg4.win 5).blk t).view.set = (win4_5.rect t).set from View.set_slice_whole _ _]
  exact ht

theorem scale4 :
    (dat4 (F := Ideal) V c).arrAt 5 cfg4.N
      = GraphNet.scale (N := 100000) (G := 1000) (C := 16) (V c (Pipeline.arrRef spec4 0)) (V c (Pipeline.arrRef spec4 1))
          (V c (Pipeline.arrRef spec4 2)) (V c (Pipeline.arrRef spec4 3)) (V c (Pipeline.arrRef spec4 4)) :=
  (dat4 (F := Ideal) V c).arrAt_eq_of_cover 5 _ (fun t _ => scale4_flush V c t) scale4_cover

end Cert.KernelIdeal.RegVal

end
-- ==== Proof.LibHead.lean ====
import Idealize.ShloMosaic.Lib.Pipeline.Value
import Idealize.ShloMosaic.Lib.ValueIdx
import Idealize.ShloMosaic.PureOps.Ideal.Laws

namespace GraphNet.LibHead

open Idealize.ShloMosaic Idealize.ShloMosaic.ValueIdx

/-- Two functions of a two-axis index are equal when they agree at every pair of coordinates. -/
theorem funext_ix2 {α : Type} {a b : ℕ} {f g : (⟨2, ![a, b]⟩ : Shape).Idx → α} (h : ∀ i j, f (ix2 i j) = g (ix2 i j)) : f = g :=
  funext fun x => eq_ix2 x ▸ h (x 0) (x 1)

/-- The f32 word 0xFF800000 is −∞, the least extended real. -/
theorem negInf_word : Ideal.ofBits .f32 0xFF800000#32 = (⊥ : EReal) := by
  simp [Ideal.ofBits, Ideal.ieee]

/-- A maximum folded from −∞, taken once more against −∞, is the supremum of the family. -/
theorem max_fold_negInf {ι : Type} (s : Finset ι) (f : ι → EReal) :
    max (Ideal.ofBits .f32 0xFF800000#32) (s.fold max (Ideal.ofBits .f32 0xFF800000#32) f) = s.sup f := by
  rw [negInf_word, max_bot_left]; rfl

/-- Putting coordinate k back on the reduced axis of row r gives the entry (r, k). -/
theorem lift_row {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A vector laid out as a column and repeated across the columns reads, at (i, c), the vector at i. -/
theorem colBroadcast_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (i : Fin a) (c : Fin b) :
    broadcastTo ⟨2, ![a, b]⟩ (shapeCast ⟨2, ![a, 1]⟩ x h) h' (ix2 i c) = x (ix1 i) := by
  refine (broadcastTo_apply _ h' (ix2 i c) (ix2 i (0 : Fin 1)) fun ax => ?_).trans
    (shapeCast_apply x h _ _ (by rw [Shape.rowMajor_val_two, Shape.rowMajor_val_one]; exact (Nat.mul_one _).symm))
  match ax with
  | ⟨0, _⟩ => show i.val = if a = 1 then 0 else i.val; split <;> omega
  | ⟨1, _⟩ => rfl

end GraphNet.LibHead
-- ==== Proof.Reg.Dense.lean ====
import proofs.«417558_j31903017075238_1_alg».proof.Proof.Spec
import proofs.«417558_j31903017075238_1_alg».proof.Proof.LibDot
import proofs.«417558_j31903017075238_1_alg».proof.Proof.LibHead
import Idealize.ShloMosaic.Lib.ValueLayout

namespace GraphNet.Dense

open Idealize.ShloMosaic Idealize.ShloMosaic.ValueIdx GraphNet.LibDot GraphNet.LibHead

variable {R K M : ℕ} (d : DotDims ⟨2, ![R, K]⟩ ⟨2, ![K, M]⟩ ⟨2, ![R, M]⟩) (hd : d = DotDims.plain R K M)
  (A : FVec Ideal ⟨2, ![R, K]⟩ .f32) (B : FVec Ideal ⟨2, ![K, M]⟩ .f32) (bias : FVec Ideal ⟨2, ![1, M]⟩ .f32)

include hd in
/-- The product of the two operands, accumulated from zero, is the matrix product. -/
theorem mmK_eq (hA hB) :
    matmul d none (truncf .bf16 A hA) (truncf .bf16 B hB) (constant ⟨2, ![R, M]⟩ .f32 0x00000000#32) = GraphNet.mm A B :=
  funext_ix2 fun r q => matmul_plain d hd none _ _ r q

include hd in
/-- With a bias row repeated down the rows added to it. -/
theorem denseK_eq (hA hB hb) :
    addf (matmul d none (truncf .bf16 A hA) (truncf .bf16 B hB) (constant ⟨2, ![R, M]⟩ .f32 0x00000000#32))
        (broadcastTo ⟨2, ![R, M]⟩ bias hb)
      = fun i => GraphNet.mm A B i + bias (ix2 0 (i 1)) := by
  rw [mmK_eq d hd]
  exact funext_ix2 fun r q => congrArg (GraphNet.mm A B (ix2 r q) + ·) (broadcastTo_1b_ab_apply bias hb r q)

/-- The positive part of such a block is the dense layer of the specification. -/
theorem reluK_eq (D : FVec Ideal ⟨2, ![R, M]⟩ .f32) (h : D = fun i => GraphNet.mm A B i + bias (ix2 0 (i 1))) :
    maximumf D (broadcast ⟨2, ![R, M]⟩ (Scalar.ofBits (F := Ideal) .f32 0x00000000#32)) = GraphNet.denseRelu A B bias :=
  h ▸ funext fun _ => congrArg (max _) Ideal.ofBits_zero_f32

/-- The product of a block of rows with the whole second factor is that block of rows of the product. -/
theorem mm_rows {r : ℕ} (X : FVec Ideal ⟨2, ![R, K]⟩ .f32) (W : FVec Ideal ⟨2, ![K, M]⟩ .f32)
    (e : (⟨2, ![r, K]⟩ : Shape).Idx → (⟨2, ![R, K]⟩ : Shape).Idx) (j : (⟨2, ![r, M]⟩ : Shape).Idx) (i : (⟨2, ![R, M]⟩ : Shape).Idx)
    (h0 : ∀ k, (e (ix2 (j 0) k) 0).val = (i 0).val) (h1 : ∀ k, (e (ix2 (j 0) k) 1).val = k.val) (h2 : (j 1).val = (i 1).val) :
    GraphNet.mm (fun y => X (e y)) W j = GraphNet.mm X W i :=
  Finset.sum_congr rfl fun k _ => congrArg₂ (· * ·) (congrArg X (Shape.idx_ext₂ (h0 k) (h1 k)))
    (congrArg (fun q => W (ix2 k q)) (Fin.ext h2))

/-- A block at index zero on every axis that spans its whole array reads the array itself. -/
theorem read_whole {sig : RefSig} {κ : Kind} {Val : EltTy → Type} (b : Ref sig κ) {idx : Fin b.ty.shape.rank → ℕ}
    (z : ∀ a, idx a = 0) (inb) (f : b.ty.Contents Val) :
    ((Memref.whole b).access (Rect.unit (fun a => idx a * b.ty.shape.size a) b.ty.shape.size inb)).read Val f = f :=
  Memref.read_access_unit_zero Val b (funext fun a => by rw [z a, Nat.zero_mul]) inb f

variable {a b : ℕ} (z : FVec Ideal ⟨2, ![a, b]⟩ .f32) (h : (⟨2, ![a, b]⟩ : Shape).Reduces [1] ⟨1, ![a]⟩)

/-- The maximum over a row, folded from −∞ and taken once more against −∞, is the row's largest entry. -/
theorem rowMaxK (hφ hm) (r : Fin a) :
    max (Ideal.ofBits .f32 0xFF800000#32) (multiReduction .maximumf [1] ⟨1, ![a]⟩ z 0xFF800000#32 h hφ hm (ix1 r))
      = GraphNet.rowMax z r :=
  (congrArg (max _) (Ideal.multiReduction_maximumf_single z _ h hφ hm (ix1 r))).trans
    ((max_fold_negInf _ _).trans (Finset.sup_congr rfl fun k _ => congrArg z (lift_row h r k)))

/-- The sum over a row, from 0, is the sum of the row's entries. -/
theorem rowSumK (hφ hs) (r : Fin a) :
    multiReduction .add [1] ⟨1, ![a]⟩ z 0x00000000#32 h hφ hs (ix1 r) = ∑ k : Fin b, z (ix2 r k) :=
  (Ideal.multiReduction_add_single z _ h hφ hs (ix1 r)).trans (Finset.sum_congr rfl fun k _ => congrArg z (lift_row h r k))

/-- Shifting each row by its largest entry, exponentiating and dividing by the row's sum is the row softmax. -/
theorem softmaxK_eq (hc : (⟨1, ![a]⟩ : Shape).ShapeCasts ⟨2, ![a, 1]⟩) (hb : (⟨2, ![a, 1]⟩ : Shape).Broadcasts ⟨2, ![a, b]⟩) (hφ hm hs) :
    let e := exp (subf z (broadcastTo ⟨2, ![a, b]⟩ (shapeCast ⟨2, ![a, 1]⟩
      (maximumf (broadcast ⟨1, ![a]⟩ (Scalar.ofBits (F := Ideal) .f32 0xFF800000#32))
        (multiReduction .maximumf [1] ⟨1, ![a]⟩ z 0xFF800000#32 h hφ hm)) hc) hb))
    divf e (broadcastTo ⟨2, ![a, b]⟩ (shapeCast ⟨2, ![a, 1]⟩ (multiReduction .add [1] ⟨1, ![a]⟩ e 0x00000000#32 h hφ hs) hc) hb)
      = GraphNet.softmaxRows z := by
  intro e
  have he : ∀ r c, e (ix2 r c) = Ideal.exp (z (ix2 r c) - GraphNet.rowMax z r) := fun r c =>
    congrArg (fun m => Ideal.exp (z (ix2 r c) - m)) ((colBroadcast_apply _ hc hb r c).trans (rowMaxK z h hφ hm r))
  exact funext_ix2 fun r c => congrArg₂ Ideal.div (he r c)
    ((colBroadcast_apply _ hc hb r c).trans ((rowSumK e h hφ hs r).trans (Finset.sum_congr rfl fun k _ => he r k)))

end GraphNet.Dense
-- ==== Proof.Reg.Mm5.lean ====
import proofs.«417558_j31903017075238_1_alg».proof.Proof.Gen.KernelIdeal.Frame
import proofs.«417558_j31903017075238_1_alg».proof.Proof.Reg.Dense
import proofs.«417558_j31903017075238_1_alg».proof.Proof.Reg.LibRows

noncomputable section

namespace Cert.KernelIdeal.RegVal

open Cert.KernelIdeal Cert.KernelIdeal.Gen Idealize.ShloMosaic Idealize.ShloMosaic.TcCoe
open Idealize.ShloMosaic.ValueIdx Idealize.SL.Sem GraphNet GraphNet.Dense

/-- The feature and result blocks of point t sit at block row t, column block 0; the weights block at (0, 0). -/
theorem idx5 : ∀ t : Fin cfg5.N, (win5_0.index t 0 = t.val ∧ win5_0.index t 1 = 0) ∧ (∀ a, win5_1.index t a = 0)
    ∧ win5_2.index t 0 = t.val ∧ win5_2.index t 1 = 0 :=
  (by decide +kernel : ∀ t : Fin grid5.N, _)

/-- The block the body leaves is the product of the two blocks it loads. -/
theorem out5_eq (x : Vec Ideal S2000x16 .f32) (w : Vec Ideal S16x64 .f32) : out5_2 (F := Ideal) x w = GraphNet.mm x w := by
  rw [out5_2, LibRows.canon_whole]
  simp only [LibRows.ld_whole]
  refine (mmK_eq _ rfl _ _ _ _).trans ?_
  rw [shapeCast_self]

variable (V : (c : Dev nD) → (b : Ref sig .tc) → Buf (Elt Ideal) ((c : Thread nD τ).loc b))

/-- Point t writes back rows 2000·t … 2000·t+1999 of the product of the two arrays. -/
theorem flushed5 (c : Dev nD) (t : Fin cfg5.N) :
    (dat5 (F := Ideal) V c).flushed 2 t = ((cfg5.win 2).blk t).view.read (Elt Ideal)
      (GraphNet.mm (R := 100000) (K := 16) (M := 64) (V c (Pipeline.arrRef spec5 0)) (V c (Pipeline.arrRef spec5 1))) := by
  obtain ⟨⟨a0, b0⟩, z1, a2, b2⟩ := idx5 t
  show (cfg5.win 2).cut (grid5.coords t) ((dat5 V c).after 2 t) = _
  rw [after5_2, out5_eq, show iblk5 V c 1 t = V c (Pipeline.arrRef spec5 1) from read_whole (Pipeline.arrRef spec5 1) z1 _ _]
  funext j
  exact mm_rows _ _ ((cfg5.win 0).blk t).view.emb j (((cfg5.win 2).blk t).view.emb j)
    (fun k => by show win5_0.index t 0 * 2000 + 1 * (j 0).val = win5_2.index t 0 * 2000 + 1 * (j 0).val; omega)
    (fun k => by show win5_0.index t 1 * 16 + 1 * k.val = k.val; omega)
    (by show (j 1).val = win5_2.index t 1 * 64 + 1 * (j 1).val; omega)

/-- The blocks of 2000 rows cover the 100000 rows, so the array ends holding the product. -/
theorem mm5 (c : Dev nD) :
    (dat5 (F := Ideal) V c).arrAt 2 cfg5.N
      = GraphNet.mm (R := 100000) (K := 16) (M := 64) (V c (Pipeline.arrRef spec5 0)) (V c (Pipeline.arrRef spec5 1)) :=
  (dat5 (F := Ideal) V c).arrAt_eq_of_cover 2 _ (fun t _ => flushed5 V c t) fun i => by
    obtain ⟨t, ht⟩ := LibRows.rows_cover (NB := cfg5.N) (R := 2000) (fun t a => win5_2.index t a * S2000x64.size a)
      (fun t a => Pipeline.Clip.inb (win5_2.hclip (grid5.coords t) a)) (fun t => by show _ * 2000 = _; rw [(idx5 t).2.2.1]; omega)
      (fun t => by show _ * 64 = _; rw [(idx5 t).2.2.2]) (by show grid5.N * 2000 = _; rw [N_5]) i
    exact ⟨t, flush5_2 t, (View.set_slice_whole main_v28 (win5_2.rect t)).symm ▸ ht⟩

end Cert.KernelIdeal.RegVal

end
-- ==== Proof.KChainA.lean ====
import proofs.«417558_j31903017075238_1_alg».proof.Proof.KFold
import proofs.«417558_j31903017075238_1_alg».proof.Proof.KStages
import proofs.«417558_j31903017075238_1_alg».proof.Proof.Reg.Seg0
import proofs.«417558_j31903017075238_1_alg».proof.Proof.Reg.Seg1
import proofs.«417558_j31903017075238_1_alg».proof.Proof.Reg.Centre2
import proofs.«417558_j31903017075238_1_alg».proof.Proof.Reg.Seg3
import proofs.«417558_j31903017075238_1_alg».proof.Proof.Reg.Scale4
import proofs.«417558_j31903017075238_1_alg».proof.Proof.Reg.Mm5
import Idealize.ShloMosaic.Lib.StableHlo.Run

set_option maxRecDepth 16384
set_option quotPrecheck false

noncomputable section

namespace Cert.KernelIdeal.Chain

open Cert.KernelIdeal Cert.KernelIdeal.Gen Cert.KernelIdeal.Fold Idealize.ShloMosaic Idealize.ShloMosaic.TcCoe
open Idealize.ShloMosaic.StableHlo Idealize.SL.Sem

variable (m : (ℓ : Loc nD τ sig) → Buf (Elt Ideal) ℓ) (ρ : Dev nD → PrngReg) (c : Dev nD)

local notation "𝔞" r:max => m ((c.tc : Thread nD τ).loc r)

/-- The three layers' outputs as functions of the launch contents. -/
abbrev X1 := Stage.layer1 (𝔞 main_arg0) (𝔞 main_arg1) (𝔞 main_arg2) (𝔞 main_arg3) (𝔞 main_arg4) (𝔞 main_arg5) (𝔞 main_arg6) (𝔞 main_arg7)
abbrev X2 := Stage.layerNext (X1 m c) (𝔞 main_arg1) (𝔞 main_arg2) (𝔞 main_arg8) (𝔞 main_arg9) (𝔞 main_arg10) (𝔞 main_arg11) (𝔞 main_arg12)
abbrev X3 := Stage.layerNext (X2 m c) (𝔞 main_arg1) (𝔞 main_arg2) (𝔞 main_arg13) (𝔞 main_arg14) (𝔞 main_arg15) (𝔞 main_arg16) (𝔞 main_arg17)

/-- No segment writes an argument. -/
theorem arg_at (b : Ref sig .tc) (j : Nat) (hb : b.idx.val < bd 0 := by decide) (hj : j ≤ 38 := by decide) :
    Wn m ρ j c (Proc.devRef .tc b) = 𝔞 b :=
  hold m ρ c 0 rfl j hb (Nat.zero_le j) hj

theorem src_at (j : Nat) (h : 1 ≤ j := by decide) (hj : j ≤ 38 := by decide) : Wn m ρ j c (Proc.devRef .tc main_v1) = Stage.src (𝔞 main_arg1) :=
  hold m ρ c 1 (by show after hostOps0 (Wn m ρ 0 c) (Proc.devRef .tc main_v1) = _; after_results <;> rfl) j (hij := h) (hj := hj)
theorem dst_at (j : Nat) (h : 1 ≤ j := by decide) (hj : j ≤ 38 := by decide) : Wn m ρ j c (Proc.devRef .tc main_v3) = Stage.dst (𝔞 main_arg1) :=
  hold m ρ c 1 (by show after hostOps0 (Wn m ρ 0 c) (Proc.devRef .tc main_v3) = _; after_results <;> rfl) j (hij := h) (hj := hj)
theorem ids_at (j : Nat) (h : 1 ≤ j := by decide) (hj : j ≤ 38 := by decide) : Wn m ρ j c (Proc.devRef .tc main_v4) = Stage.ids (𝔞 main_arg2) :=
  hold m ρ c 1 (by show after hostOps0 (Wn m ρ 0 c) (Proc.devRef .tc main_v4) = _; after_results <;> rfl) j (hij := h) (hj := hj)

theorem sizes2 : Wn m ρ 2 c (Proc.devRef .tc main_v6)
    = GraphNet.segSum (N := 100000) (G := 1000) (C := 1)
        (broadcastInDim S100000x1 ![] bcast_S_S100000x1 (constant (F := Ideal) S_ .f32 0x3F800000#32)) (Stage.ids (𝔞 main_arg2)) :=
  (W2_arr m ρ c 2).trans ((RegVal.seg0 (V1 m ρ) c).trans (congrArg₂ _
    (by show after hostOps0 (Wn m ρ 0 c) (Proc.devRef .tc main_v5) = _; after_results <;> rfl) (ids_at m ρ c 1)))

theorem counts_at (j : Nat) (h : 3 ≤ j := by decide) (hj : j ≤ 38 := by decide) : Wn m ρ j c (Proc.devRef .tc main_v8) = Stage.counts (𝔞 main_arg2) :=
  hold m ρ c 3 (by show after hostOps1 (Wn m ρ 2 c) (Proc.devRef .tc main_v8) = _; after_results; rw [sizes2 m ρ c]; rfl) j (hij := h) (hj := hj)
theorem deg_at (j : Nat) (h : 3 ≤ j := by decide) (hj : j ≤ 38 := by decide) : Wn m ρ j c (Proc.devRef .tc main_v14) = Stage.deg (𝔞 main_arg1) :=
  hold m ρ c 3 (by show after hostOps1 (Wn m ρ 2 c) (Proc.devRef .tc main_v14) = _; after_results; rw [dst_at m ρ c 2]; rfl) j (hij := h) (hj := hj)
theorem dinv_at (j : Nat) (h : 3 ≤ j := by decide) (hj : j ≤ 38 := by decide) : Wn m ρ j c (Proc.devRef .tc main_v15) = Stage.dinv (𝔞 main_arg1) :=
  hold m ρ c 3 (by show after hostOps1 (Wn m ρ 2 c) (Proc.devRef .tc main_v15) = _; after_results; rw [dst_at m ρ c 2]; rfl) j (hij := h) (hj := hj)
theorem w0_9 : Wn m ρ 9 c (Proc.devRef .tc main_v16) = Stage.row16 (𝔞 main_arg3) :=
  hold m ρ c 3 (by show after hostOps1 (Wn m ρ 2 c) (Proc.devRef .tc main_v16) = _; after_results; rw [arg_at m ρ c main_arg3 2]; rfl) 9
theorem b0_9 : Wn m ρ 9 c (Proc.devRef .tc main_v17) = Stage.row16 (𝔞 main_arg4) :=
  hold m ρ c 3 (by show after hostOps1 (Wn m ρ 2 c) (Proc.devRef .tc main_v17) = _; after_results; rw [arg_at m ρ c main_arg4 2]; rfl) 9
theorem a0_5 : Wn m ρ 5 c (Proc.devRef .tc main_v18) = Stage.row16 (𝔞 main_arg5) :=
  hold m ρ c 3 (by show after hostOps1 (Wn m ρ 2 c) (Proc.devRef .tc main_v18) = _; after_results; rw [arg_at m ρ c main_arg5 2]; rfl) 5

theorem sum4 : Wn m ρ 4 c (Proc.devRef .tc main_v19)
    = GraphNet.segSum (N := 100000) (G := 1000) (C := 16) (𝔞 main_arg0) (Stage.ids (𝔞 main_arg2)) :=
  (W4_arr m ρ c 2).trans ((RegVal.seg1 (V3 m ρ) c).trans (congrArg₂ _ (arg_at m ρ c main_arg0 3) (ids_at m ρ c 3)))

theorem mean5 : Wn m ρ 5 c (Proc.devRef .tc main_v21) = Stage.mean16 (𝔞 main_arg0) (𝔞 main_arg2) := by
  show after hostOps2 (Wn m ρ 4 c) (Proc.devRef .tc main_v21) = _
  after_results
  rw [sum4 m ρ c, counts_at m ρ c 4]; rfl

theorem centred_at (j : Nat) (h : 6 ≤ j := by decide) (hj : j ≤ 38 := by decide) :
    Wn m ρ j c (Proc.devRef .tc main_v22) = Stage.centred16 (𝔞 main_arg0) (𝔞 main_arg2) (𝔞 main_arg5) :=
  hold m ρ c (b := main_v22) 6 ((W6_arr m ρ c 4).trans ((RegVal.centre2 (V5 m ρ) c).trans
    (congr (congr (congrArg₂ _ (arg_at m ρ c main_arg0 5) (ids_at m ρ c 5)) (mean5 m ρ c)) (a0_5 m ρ c)))) j (hij := h) (hj := hj)

theorem sum8 : Wn m ρ 8 c (Proc.devRef .tc main_v24)
    = GraphNet.segSum (N := 100000) (G := 1000) (C := 16)
        (mulf (Stage.centred16 (𝔞 main_arg0) (𝔞 main_arg2) (𝔞 main_arg5)) (Stage.centred16 (𝔞 main_arg0) (𝔞 main_arg2) (𝔞 main_arg5)))
        (Stage.ids (𝔞 main_arg2)) :=
  (W8_arr m ρ c 2).trans ((RegVal.seg3 (V7 m ρ) c).trans (congrArg₂ _
    (by show after hostOps3 (Wn m ρ 6 c) (Proc.devRef .tc main_v23) = _; after_results; rw [centred_at m ρ c 6]) (ids_at m ρ c 7)))

theorem var9 : Wn m ρ 9 c (Proc.devRef .tc main_v26) = Stage.var16 (𝔞 main_arg0) (𝔞 main_arg2) (𝔞 main_arg5) := by
  show after hostOps4 (Wn m ρ 8 c) (Proc.devRef .tc main_v26) = _
  after_results
  rw [sum8 m ρ c, counts_at m ρ c 8]; rfl

set_option maxHeartbeats 2000000 in
theorem norm10 : Wn m ρ 10 c (Proc.devRef .tc main_v27)
    = Stage.gnorm16 (𝔞 main_arg0) (𝔞 main_arg2) (𝔞 main_arg3) (𝔞 main_arg4) (𝔞 main_arg5) :=
  (W10_arr m ρ c 5).trans ((RegVal.scale4 (V9 m ρ) c).trans
    (congr (congr (congr (congrArg₂ _ (centred_at m ρ c 9) (ids_at m ρ c 9)) (var9 m ρ c)) (w0_9 m ρ c)) (b0_9 m ρ c)))

theorem proj11 : Wn m ρ 11 c (Proc.devRef .tc main_v28)
    = GraphNet.mm (R := 100000) (K := 16) (M := 64)
        (Stage.gnorm16 (𝔞 main_arg0) (𝔞 main_arg2) (𝔞 main_arg3) (𝔞 main_arg4) (𝔞 main_arg5)) (𝔞 main_arg6) :=
  (W11_arr m ρ c 2).trans ((RegVal.mm5 (V10 m ρ) c).trans (congrArg₂ _ (norm10 m ρ c) (arg_at m ρ c main_arg6 10)))

end Cert.KernelIdeal.Chain

end
-- ==== Proof.LibTRef.lean ====
import Idealize.ShloMosaic.Lib.StableHlo

namespace Idealize.ShloMosaic.StableHlo.TRef

/-- Carrying contents to the buffer's own type and back changes nothing. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.Reg.Seg6.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg6

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid6.N, (fun a => win6_0.index t a * win6_0.size a) = ![2000 * t.val, 0]
    ∧ (fun a => win6_1.index t a * win6_1.size a) = ![2000 * t.val, 0]
    ∧ (fun a => win6_2.index t a * win6_2.size a) = fun _ => 0 := by decide +kernel

/-- The first point stores the step over the cleared table. -/
theorem first (t : Fin cfg6.N) (h : t.val % 50 = 0) :
    outsAt6 V c t.val t.isLt = k6_pay2 (iblk6 V c 1 t) (iblk6 V c 0 t) (k6_pay1 (F := Ideal)) := by
  rw [outsAt6_A V c t h]
  unfold out6_A_2 kernelRun6_A
  sl_unfold_words
  rw [read_writes_unit_zero _ _ zero2]
  simp only [View.readCov_unit_zero (S := S1000x64) _ zero2, View.readAt_eq_ld, (hs6_0 t).read_unread,
    (hs6_1 t).read_unread]
  congr 1 <;> exact ld_whole _ _

/-- A later point stores the step over what the point before left. -/
theorem later (t : Fin cfg6.N) (h : ¬t.val % 50 = 0) :
    outsAt6 V c t.val t.isLt = k6_pay2 (iblk6 V c 1 t) (iblk6 V c 0 t) (outsAt6 V c (t.val - 1) (by omega)) := by
  rw [outsAt6_B V c t h]
  unfold out6_B_2 kernelRun6_B
  rw [read_writes_unit_zero _ _ zero2]
  simp only [View.readAt_eq_ld, (hs6_0 t).read_unread, (hs6_1 t).read_unread, (hs6_2 t).read_unread]
  congr 1 <;> exact ld_whole _ _

end Seg6

/-- After the last point the output array is the segment sum of the two input arrays. -/
theorem seg6 (V : (c : Dev nD) → (b : Ref sig .tc) → Buf (Elt Ideal) ((c : Thread nD τ).loc b)) (c : Dev nD) :
    (dat6 (F := Ideal) V c).arrAt 2 cfg6.N
      = GraphNet.segSum (N := 100000) (G := 1000) (C := 64) (V c (Pipeline.arrRef spec6 0)) (V c (Pipeline.arrRef spec6 1)) :=
  arrAt_of_last (dat6 V c) 2 N_6 flush6_2 _
    (fun t h => (segSum_of_steps N_6 _ _ (iblk6 V c 0) (iblk6 V c 1) (fun t r f h => read_rows _ (Seg6.offs t).1 _ r f h)
      (fun t r h => read_rows _ (Seg6.offs t).2.1 _ r 0 h) (k6_pay2 (F := Ideal)) k6_pay1
      (fun ids x acc g f => seg_step dot_S2000x1000_S2000x64_S1000x64_0_0_1_1_n_n rfl ids x _ (shapeCast_self x _) acc _ _ g f)
      (fun _ => Ideal.ofBits_zero_f32) (outsAt6 V c) (Seg6.first V c) (Seg6.later V c) t h).trans
      (Memref.read_access_unit_zero (Elt Ideal) main_v68 (Seg6.offs t).2.2 _ _).symm)
    fun t i => by rw [View.set_slice_whole]; exact View.mem_set_unit_zero (Seg6.offs t).2.2 _ i

end Cert.KernelIdeal.RegVal

end
-- ==== Proof.Reg.Centre7.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem c7_idx : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (∀ a, win7_2.index t a = 0) ∧ (∀ a, win7_3.index t a = 0)
    ∧ win7_4.index t (0 : Fin 2) = t.val ∧ win7_4.index t (1 : Fin 2) = 0 :=
  (by decide +kernel : ∀ t : Fin grid7.N, _)

variable (V : (c : Dev nD) → (b : Ref sig .tc) → Buf (Elt Ideal) ((c : Thread nD τ).loc b)) (c : Dev nD) (t : Fin cfg7.N)

/-- A window that sits at block 0 of an array of its own size holds the whole array. -/
theorem c7_whole :
    iblk7 V c 2 t = V c (Pipeline.arrRef spec7 2)
    ∧ iblk7 V c 3 t = V c (Pipeline.arrRef spec7 3) :=
  ⟨funext fun y => congrArg (V c (Pipeline.arrRef spec7 2)) (funext fun a =>
    Fin.ext (win7_2.rect_emb_val_of_index_zero t a ((c7_idx t).2.2.1 a) y)),
   funext fun y => congrArg (V c (Pipeline.arrRef spec7 3)) (funext fun a =>
    Fin.ext (win7_3.rect_emb_val_of_index_zero t a ((c7_idx t).2.2.2.1 a) y))⟩

/-- A window at block (t, 0) holds rows 2000·t … of its array. -/
theorem c7_rows :
    (∀ (y : S2000x64.Idx) (k : S100000x64.Idx), (k 0).val = 2000 * t.val + (y 0).val → (k 1).val = (y 1).val →
      iblk7 V c 0 t y = V c (Pipeline.arrRef spec7 0) k)
    ∧ ∀ (y : S2000x1.Idx) (k : S100000x1.Idx), (k 0).val = 2000 * t.val + (y 0).val → (k 1).val = (y 1).val →
      iblk7 V c 1 t y = V c (Pipeline.arrRef spec7 1) k := by
  obtain ⟨⟨a0, b0⟩, ⟨a1, b1⟩, -⟩ := c7_idx t
  exact ⟨fun y k h0 h1 => congrArg (V c (Pipeline.arrRef spec7 0)) (Shape.idx_ext₂
      (by show win7_0.index t (0 : Fin 2) * 2000 + 1 * _ = _; omega)
      (by show win7_0.index t (1 : Fin 2) * 64 + 1 * _ = _; omega)),
    fun y k h0 h1 => congrArg (V c (Pipeline.arrRef spec7 1)) (Shape.idx_ext₂
      (by show win7_1.index t (0 : Fin 2) * 2000 + 1 * _ = _; omega)
      (by show win7_1.index t (1 : Fin 2) * 1 + 1 * _ = _; omega))⟩

/-- What point t writes back is its rows of the centred array. -/
theorem c7_flush :
    (dat7 (F := Ideal) V c).flushed 4 t = ((cfg7.win 4).blk t).view.read (Elt Ideal)
      (GraphNet.centre (N := 100000) (G := 1000) (C := 64) (V c (Pipeline.arrRef spec7 0)) (V c (Pipeline.arrRef spec7 1))
        (V c (Pipeline.arrRef spec7 2)) (V c (Pipeline.arrRef spec7 3))) := by
  have ho := (c7_idx t).2.2.2.2
  show (cfg7.win 4).cut (grid7.coords t) ((dat7 V c).after 4 t) = _
  simp only [after7_4, out7_4, LibRows.canon_whole, LibRows.ld_whole, k7_pay1, shapeCast_self]
  funext j
  exact centre_entry (C := 64) _ rfl _ _ (V c (Pipeline.arrRef spec7 0)) (V c (Pipeline.arrRef spec7 1))
    (V c (Pipeline.arrRef spec7 2)) (V c (Pipeline.arrRef spec7 3)) _ _ _ _
    (c7_whole V c t).1 (c7_whole V c t).2
    _ (onehot_flat_entry _) t.val j (((cfg7.win 4).blk t).view.emb j)
    (by show win7_4.index t (0 : Fin 2) * 2000 + 1 * _ = _; omega)
    (by show win7_4.index t (1 : Fin 2) * 64 + 1 * _ = _; omega)
    (c7_rows V c t).1 (c7_rows V c t).2

/-- Row n lies in the block of point n / 2000. -/
theorem c7_cover (i : S100000x64.Idx) :
    ∃ t : Fin cfg7.N, (cfg7.win 4).flush t = true ∧ i ∈ ((cfg7.win 4).blk t).view.set := by
  obtain ⟨t, ht⟩ := LibRows.rows_cover (NB := cfg7.N) (R := 2000) (fun t a => win7_4.index t a * S2000x64.size a)
    (fun t a => Pipeline.Clip.inb (win7_4.hclip (grid7.coords t) a))
    (fun t => by show _ * 2000 = _; rw [(c7_idx t).2.2.2.2.1]; omega)
    (fun t => by show _ * 64 = _; rw [(c7_idx t).2.2.2.2.2]) (by show grid7.N * 2000 = _; rw [N_7]) i
  refine ⟨t, flush7_4 t, ?_⟩
  rw [show ((cfg7.win 4).blk t).view.set = (win7_4.rect t).set from View.set_slice_whole _ _]
  exact ht

theorem centre7 :
    (dat7 (F := Ideal) V c).arrAt 4 cfg7.N
      = GraphNet.centre (N := 100000) (G := 1000) (C := 64) (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => c7_flush V c t) c7_cover

end Cert.KernelIdeal.RegVal

end
-- ==== Proof.Reg.Seg8.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg8

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid8.N, (fun a => win8_0.index t a * win8_0.size a) = ![2000 * t.val, 0]
    ∧ (fun a => win8_1.index t a * win8_1.size a) = ![2000 * t.val, 0]
    ∧ (fun a => win8_2.index t a * win8_2.size a) = fun _ => 0 := by decide +kernel

/-- The first point stores the step over the cleared table. -/
theorem first (t : Fin cfg8.N) (h : t.val % 50 = 0) :
    outsAt8 V c t.val t.isLt = k8_pay2 (iblk8 V c 1 t) (iblk8 V c 0 t) (k8_pay1 (F := Ideal)) := by
  rw [outsAt8_A V c t h]
  unfold out8_A_2 kernelRun8_A
  sl_unfold_words
  rw [read_writes_unit_zero _ _ zero2]
  simp only [View.readCov_unit_zero (S := S1000x64) _ zero2, View.readAt_eq_ld, (hs8_0 t).read_unread,
    (hs8_1 t).read_unread]
  congr 1 <;> exact ld_whole _ _

/-- A later point stores the step over what the point before left. -/
theorem later (t : Fin cfg8.N) (h : ¬t.val % 50 = 0) :
    outsAt8 V c t.val t.isLt = k8_pay2 (iblk8 V c 1 t) (iblk8 V c 0 t) (outsAt8 V c (t.val - 1) (by omega)) := by
  rw [outsAt8_B V c t h]
  unfold out8_B_2 kernelRun8_B
  rw [read_writes_unit_zero _ _ zero2]
  simp only [View.readAt_eq_ld, (hs8_0 t).read_unread, (hs8_1 t).read_unread, (hs8_2 t).read_unread]
  congr 1 <;> exact ld_whole _ _

end Seg8

/-- After the last point the output array is the segment sum of the two input arrays. -/
theorem seg8 (V : (c : Dev nD) → (b : Ref sig .tc) → Buf (Elt Ideal) ((c : Thread nD τ).loc b)) (c : Dev nD) :
    (dat8 (F := Ideal) V c).arrAt 2 cfg8.N
      = GraphNet.segSum (N := 100000) (G := 1000) (C := 64) (V c (Pipeline.arrRef spec8 0)) (V c (Pipeline.arrRef spec8 1)) :=
  arrAt_of_last (dat8 V c) 2 N_8 flush8_2 _
    (fun t h => (segSum_of_steps N_8 _ _ (iblk8 V c 0) (iblk8 V c 1) (fun t r f h => read_rows _ (Seg8.offs t).1 _ r f h)
      (fun t r h => read_rows _ (Seg8.offs t).2.1 _ r 0 h) (k8_pay2 (F := Ideal)) k8_pay1
      (fun ids x acc g f => seg_step dot_S2000x1000_S2000x64_S1000x64_0_0_1_1_n_n rfl ids x _ (shapeCast_self x _) acc _ _ g f)
      (fun _ => Ideal.ofBits_zero_f32) (outsAt8 V c) (Seg8.first V c) (Seg8.later V c) t h).trans
      (Memref.read_access_unit_zero (Elt Ideal) main_v73 (Seg8.offs t).2.2 _ _).symm)
    fun t i => by rw [View.set_slice_whole]; exact View.mem_set_unit_zero (Seg8.offs t).2.2 _ i

end Cert.KernelIdeal.RegVal

end
-- ==== Proof.Reg.Scale9.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem scale9_idx : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (∀ a, win9_2.index t a = 0) ∧ (∀ a, win9_3.index t a = 0) ∧ (∀ a, win9_4.index t a = 0)
    ∧ win9_5.index t (0 : Fin 2) = t.val ∧ win9_5.index t (1 : Fin 2) = 0 :=
  (by decide +kernel : ∀ t : Fin grid9.N, _)

variable (V : (c : Dev nD) → (b : Ref sig .tc) → Buf (Elt Ideal) ((c : Thread nD τ).loc b)) (c : Dev nD) (t : Fin cfg9.N)

/-- A window that sits at block 0 of an array of its own size holds the whole array. -/
theorem scale9_whole :
    iblk9 V c 2 t = V c (Pipeline.arrRef spec9 2)
    ∧ iblk9 V c 3 t = V c (Pipeline.arrRef spec9 3)
    ∧ iblk9 V c 4 t = V c (Pipeline.arrRef spec9 4) :=
  ⟨funext fun y => congrArg (V c (Pipeline.arrRef spec9 2)) (funext fun a =>
    Fin.ext (win9_2.rect_emb_val_of_index_zero t a ((scale9_idx t).2.2.1 a) y)),
   funext fun y => congrArg (V c (Pipeline.arrRef spec9 3)) (funext fun a =>
    Fin.ext (win9_3.rect_emb_val_of_index_zero t a ((scale9_idx t).2.2.2.1 a) y)),
   funext fun y => congrArg (V c (Pipeline.arrRef spec9 4)) (funext fun a =>
    Fin.ext (win9_4.rect_emb_val_of_index_zero t a ((scale9_idx t).2.2.2.2.1 a) y))⟩

/-- A window at block (t, 0) holds rows 2000·t … of its array. -/
theorem scale9_rows :
    (∀ (y : S2000x64.Idx) (k : S100000x64.Idx), (k 0).val = 2000 * t.val + (y 0).val → (k 1).val = (y 1).val →
      iblk9 V c 0 t y = V c (Pipeline.arrRef spec9 0) k)
    ∧ ∀ (y : S2000x1.Idx) (k : S100000x1.Idx), (k 0).val = 2000 * t.val + (y 0).val → (k 1).val = (y 1).val →
      iblk9 V c 1 t y = V c (Pipeline.arrRef spec9 1) k := by
  obtain ⟨⟨a0, b0⟩, ⟨a1, b1⟩, -⟩ := scale9_idx t
  exact ⟨fun y k h0 h1 => congrArg (V c (Pipeline.arrRef spec9 0)) (Shape.idx_ext₂
      (by show win9_0.index t (0 : Fin 2) * 2000 + 1 * _ = _; omega)
      (by show win9_0.index t (1 : Fin 2) * 64 + 1 * _ = _; omega)),
    fun y k h0 h1 => congrArg (V c (Pipeline.arrRef spec9 1)) (Shape.idx_ext₂
      (by show win9_1.index t (0 : Fin 2) * 2000 + 1 * _ = _; omega)
      (by show win9_1.index t (1 : Fin 2) * 1 + 1 * _ = _; omega))⟩

/-- What point t writes back is its rows of the rescaled array. -/
theorem scale9_flush :
    (dat9 (F := Ideal) V c).flushed 5 t = ((cfg9.win 5).blk t).view.read (Elt Ideal)
      (GraphNet.scale (N := 100000) (G := 1000) (C := 64) (V c (Pipeline.arrRef spec9 0)) (V c (Pipeline.arrRef spec9 1))
        (V c (Pipeline.arrRef spec9 2)) (V c (Pipeline.arrRef spec9 3)) (V c (Pipeline.arrRef spec9 4))) := by
  have ho := (scale9_idx t).2.2.2.2.2
  show (cfg9.win 5).cut (grid9.coords t) ((dat9 V c).after 5 t) = _
  simp only [after9_5, out9_5, LibRows.canon_whole, LibRows.ld_whole, k9_pay1, shapeCast_self]
  funext j
  exact scale_entry (C := 64) _ rfl _ _ (V c (Pipeline.arrRef spec9 0)) (V c (Pipeline.arrRef spec9 1))
    (V c (Pipeline.arrRef spec9 2)) (V c (Pipeline.arrRef spec9 3)) (V c (Pipeline.arrRef spec9 4)) _ _ _ _ _
    (scale9_whole V c t).1 (scale9_whole V c t).2.1 (scale9_whole V c t).2.2
    _ (onehot_flat_entry _) t.val j (((cfg9.win 5).blk t).view.emb j)
    (by show win9_5.index t (0 : Fin 2) * 2000 + 1 * _ = _; omega)
    (by show win9_5.index t (1 : Fin 2) * 64 + 1 * _ = _; omega)
    (scale9_rows V c t).1 (scale9_rows V c t).2

/-- Row n lies in the block of point n / 2000. -/
theorem scale9_cover (i : S100000x64.Idx) :
    ∃ t : Fin cfg9.N, (cfg9.win 5).flush t = true ∧ i ∈ ((cfg9.win 5).blk t).view.set := by
  obtain ⟨t, ht⟩ := LibRows.rows_cover (NB := cfg9.N) (R := 2000) (fun t a => win9_5.index t a * S2000x64.size a)
    (fun t a => Pipeline.Clip.inb (win9_5.hclip (grid9.coords t) a))
    (fun t => by show _ * 2000 = _; rw [(scale9_idx t).2.2.2.2.2.1]; omega)
    (fun t => by show _ * 64 = _; rw [(scale9_idx t).2.2.2.2.2.2]) (by show grid9.N * 2000 = _; rw [N_9]) i
  refine ⟨t, flush9_5 t, ?_⟩
  rw [show ((cfg9.win 5).blk t).view.set = (win9_5.rect t).set from View.set_slice_whole _ _]
  exact ht

theorem scale9 :
    (dat9 (F := Ideal) V c).arrAt 5 cfg9.N
      = GraphNet.scale (N := 100000) (G := 1000) (C := 64) (V c (Pipeline.arrRef spec9 0)) (V c (Pipeline.arrRef spec9 1))
          (V c (Pipeline.arrRef spec9 2)) (V c (Pipeline.arrRef spec9 3)) (V c (Pipeline.arrRef spec9 4)) :=
  (dat9 (F := Ideal) V c).arrAt_eq_of_cover 5 _ (fun t _ => scale9_flush V c t) scale9_cover

end Cert.KernelIdeal.RegVal

end
-- ==== Proof.Reg.Mm10.lean ====
import proofs.«417558_j31903017075238_1_alg».proof.Proof.Gen.KernelIdeal.Frame
import proofs.«417558_j31903017075238_1_alg».proof.Proof.Reg.Dense
import proofs.«417558_j31903017075238_1_alg».proof.Proof.Reg.LibRows

noncomputable section

namespace Cert.KernelIdeal.RegVal

open Cert.KernelIdeal Cert.KernelIdeal.Gen Idealize.ShloMosaic Idealize.ShloMosaic.TcCoe
open Idealize.ShloMosaic.ValueIdx Idealize.SL.Sem GraphNet GraphNet.Dense

/-- The feature and result blocks of point t sit at block row t, column block 0; the weights block at (0, 0). -/
theorem idx10 : ∀ t : Fin cfg10.N, (win10_0.index t 0 = t.val ∧ win10_0.index t 1 = 0) ∧ (∀ a, win10_1.index t a = 0)
    ∧ win10_2.index t 0 = t.val ∧ win10_2.index t 1 = 0 :=
  (by decide +kernel : ∀ t : Fin grid10.N, _)

/-- The block the body leaves is the product of the two blocks it loads. -/
theorem out10_eq (x : Vec Ideal S2000x64 .f32) (w : Vec Ideal S64x64 .f32) : out10_2 (F := Ideal) x w = GraphNet.mm x w := by
  rw [out10_2, LibRows.canon_whole]
  simp only [LibRows.ld_whole]
  refine (mmK_eq _ rfl _ _ _ _).trans ?_
  rw [shapeCast_self]

variable (V : (c : Dev nD) → (b : Ref sig .tc) → Buf (Elt Ideal) ((c : Thread nD τ).loc b))

/-- Point t writes back rows 2000·t … 2000·t+1999 of the product of the two arrays. -/
theorem flushed10 (c : Dev nD) (t : Fin cfg10.N) :
    (dat10 (F := Ideal) V c).flushed 2 t = ((cfg10.win 2).blk t).view.read (Elt Ideal)
      (GraphNet.mm (R := 100000) (K := 64) (M := 64) (V c (Pipeline.arrRef spec10 0)) (V c (Pipeline.arrRef spec10 1))) := by
  obtain ⟨⟨a0, b0⟩, z1, a2, b2⟩ := idx10 t
  show (cfg10.win 2).cut (grid10.coords t) ((dat10 V c).after 2 t) = _
  rw [after10_2, out10_eq, show iblk10 V c 1 t = V c (Pipeline.arrRef spec10 1) from read_whole (Pipeline.arrRef spec10 1) z1 _ _]
  funext j
  exact mm_rows _ _ ((cfg10.win 0).blk t).view.emb j (((cfg10.win 2).blk t).view.emb j)
    (fun k => by show win10_0.index t 0 * 2000 + 1 * (j 0).val = win10_2.index t 0 * 2000 + 1 * (j 0).val; omega)
    (fun k => by show win10_0.index t 1 * 64 + 1 * k.val = k.val; omega)
    (by show (j 1).val = win10_2.index t 1 * 64 + 1 * (j 1).val; omega)

/-- The blocks of 2000 rows cover the 100000 rows, so the array ends holding the product. -/
theorem mm10 (c : Dev nD) :
    (dat10 (F := Ideal) V c).arrAt 2 cfg10.N
      = GraphNet.mm (R := 100000) (K := 64) (M := 64) (V c (Pipeline.arrRef spec10 0)) (V c (Pipeline.arrRef spec10 1)) :=
  (dat10 (F := Ideal) V c).arrAt_eq_of_cover 2 _ (fun t _ => flushed10 V c t) fun i => by
    obtain ⟨t, ht⟩ := LibRows.rows_cover (NB := cfg10.N) (R := 2000) (fun t a => win10_2.index t a * S2000x64.size a)
      (fun t a => Pipeline.Clip.inb (win10_2.hclip (grid10.coords t) a)) (fun t => by show _ * 2000 = _; rw [(idx10 t).2.2.1]; omega)
      (fun t => by show _ * 64 = _; rw [(idx10 t).2.2.2]) (by show grid10.N * 2000 = _; rw [N_10]) i
    exact ⟨t, flush10_2 t, (View.set_slice_whole main_v77 (win10_2.rect t)).symm ▸ ht⟩

end Cert.KernelIdeal.RegVal

end
-- ==== Proof.KChainB.lean ====
import proofs.«417558_j31903017075238_1_alg».proof.Proof.KChainA
import proofs.«417558_j31903017075238_1_alg».proof.Proof.LibTRef
import proofs.«417558_j31903017075238_1_alg».proof.Proof.Reg.Seg6
import proofs.«417558_j31903017075238_1_alg».proof.Proof.Reg.Centre7
import proofs.«417558_j31903017075238_1_alg».proof.Proof.Reg.Seg8
import proofs.«417558_j31903017075238_1_alg».proof.Proof.Reg.Scale9
import proofs.«417558_j31903017075238_1_alg».proof.Proof.Reg.Mm10

set_option maxRecDepth 16384
set_option quotPrecheck false
set_option maxHeartbeats 1000000

noncomputable section

namespace Cert.KernelIdeal.Chain

open Cert.KernelIdeal Cert.KernelIdeal.Gen Cert.KernelIdeal.Fold Idealize.ShloMosaic Idealize.ShloMosaic.TcCoe
open Idealize.ShloMosaic.StableHlo Idealize.SL.Sem

variable (m : (ℓ : Loc nD τ sig) → Buf (Elt Ideal) ℓ) (ρ : Dev nD → PrngReg) (c : Dev nD)

local notation "𝔞" r:max => m ((c.tc : Thread nD τ).loc r)

theorem conv12_of (W : Valuation τ sig (Elt Ideal)) : after hostOps6 W (Proc.devRef .tc main_v63)
    = Stage.conv (W (Proc.devRef .tc main_v28)) (W (Proc.devRef .tc main_v1)) (W (Proc.devRef .tc main_v3))
        (W (Proc.devRef .tc main_v15)) (W (Proc.devRef .tc main_v14)) (W (Proc.devRef .tc main_arg7)) := by
  after_results_simp <;> rfl
theorem relu13_of (W : Valuation τ sig (Elt Ideal)) : after hostOps6_1 W (Proc.devRef .tc main_v64)
    = Stage.relu (W (Proc.devRef .tc main_v63)) := by
  after_results
  simp only [TRef.ofBuf_toBuf]
  rfl

theorem X1_13 : Wn m ρ 13 c (Proc.devRef .tc main_v64) = X1 m c :=
  (relu13_of (Wn m ρ 12 c)).trans (by
    rw [show Wn m ρ 12 c = after hostOps6 (Wn m ρ 11 c) by simp only [Wn, List.getD_cons_succ, List.getD_cons_zero], conv12_of,
      proj11 m ρ c, src_at m ρ c 11, dst_at m ρ c 11, dinv_at m ρ c 11, deg_at m ρ c 11, arg_at m ρ c main_arg7 11]
    rfl)
theorem X1_at (j : Nat) (h : 13 ≤ j := by decide) (hj : j ≤ 38 := by decide) : Wn m ρ j c (Proc.devRef .tc main_v64) = X1 m c :=
  hold m ρ c 13 (X1_13 m ρ c) j (hij := h) (hj := hj)

theorem w20 : Wn m ρ 20 c (Proc.devRef .tc main_v65) = Stage.row64 (𝔞 main_arg8) :=
  hold m ρ c 14 (by show after hostOps6_2 (Wn m ρ 13 c) (Proc.devRef .tc main_v65) = _; after_results; rw [arg_at m ρ c main_arg8 13]; rfl) 20
theorem b20 : Wn m ρ 20 c (Proc.devRef .tc main_v66) = Stage.row64 (𝔞 main_arg9) :=
  hold m ρ c 14 (by show after hostOps6_2 (Wn m ρ 13 c) (Proc.devRef .tc main_v66) = _; after_results; rw [arg_at m ρ c main_arg9 13]; rfl) 20
theorem a16 : Wn m ρ 16 c (Proc.devRef .tc main_v67) = Stage.row64 (𝔞 main_arg10) :=
  hold m ρ c 14 (by show after hostOps6_2 (Wn m ρ 13 c) (Proc.devRef .tc main_v67) = _; after_results; rw [arg_at m ρ c main_arg10 13]; rfl) 16

theorem sum15 : Wn m ρ 15 c (Proc.devRef .tc main_v68)
    = GraphNet.segSum (N := 100000) (G := 1000) (C := 64) (X1 m c) (Stage.ids (𝔞 main_arg2)) :=
  (W15_arr m ρ c 2).trans ((RegVal.seg6 (V14 m ρ) c).trans (congrArg₂ _ (X1_at m ρ c 14) (ids_at m ρ c 14)))

theorem mean16 : Wn m ρ 16 c (Proc.devRef .tc main_v70) = Stage.mean64 (X1 m c) (𝔞 main_arg2) := by
  show after hostOps7 (Wn m ρ 15 c) (Proc.devRef .tc main_v70) = _
  after_results
  rw [sum15 m ρ c, counts_at m ρ c 15]; rfl

theorem centred17_at (j : Nat) (h : 17 ≤ j := by decide) (hj : j ≤ 38 := by decide) :
    Wn m ρ j c (Proc.devRef .tc main_v71) = Stage.centred64 (X1 m c) (𝔞 main_arg2) (𝔞 main_arg10) :=
  hold m ρ c (b := main_v71) 17 ((W17_arr m ρ c 4).trans ((RegVal.centre7 (V16 m ρ) c).trans
    (congr (congr (congrArg₂ _ (X1_at m ρ c 16) (ids_at m ρ c 16)) (mean16 m ρ c)) (a16 m ρ c)))) j (hij := h) (hj := hj)

theorem sum19 : Wn m ρ 19 c (Proc.devRef .tc main_v73)
    = GraphNet.segSum (N := 100000) (G := 1000) (C := 64)
        (mulf (Stage.centred64 (X1 m c) (𝔞 main_arg2) (𝔞 main_arg10)) (Stage.centred64 (X1 m c) (𝔞 main_arg2) (𝔞 main_arg10)))
        (Stage.ids (𝔞 main_arg2)) :=
  (W19_arr m ρ c 2).trans ((RegVal.seg8 (V18 m ρ) c).trans (congrArg₂ _
    (by show after hostOps8 (Wn m ρ 17 c) (Proc.devRef .tc main_v72) = _; after_results; rw [centred17_at m ρ c 17]) (ids_at m ρ c 18)))

theorem var20 : Wn m ρ 20 c (Proc.devRef .tc main_v75) = Stage.var64 (X1 m c) (𝔞 main_arg2) (𝔞 main_arg10) := by
  show after hostOps9 (Wn m ρ 19 c) (Proc.devRef .tc main_v75) = _
  after_results
  rw [sum19 m ρ c, counts_at m ρ c 19]; rfl

theorem norm21 : Wn m ρ 21 c (Proc.devRef .tc main_v76)
    = Stage.gnorm64 (X1 m c) (𝔞 main_arg2) (𝔞 main_arg8) (𝔞 main_arg9) (𝔞 main_arg10) :=
  (W21_arr m ρ c 5).trans ((RegVal.scale9 (V20 m ρ) c).trans
    (congr (congr (congr (congrArg₂ _ (centred17_at m ρ c 20) (ids_at m ρ c 20)) (var20 m ρ c)) (w20 m ρ c)) (b20 m ρ c)))

theorem proj22 : Wn m ρ 22 c (Proc.devRef .tc main_v77)
    = GraphNet.mm (R := 100000) (K := 64) (M := 64)
        (Stage.gnorm64 (X1 m c) (𝔞 main_arg2) (𝔞 main_arg8) (𝔞 main_arg9) (𝔞 main_arg10)) (𝔞 main_arg11) :=
  (W22_arr m ρ c 2).trans ((RegVal.mm10 (V21 m ρ) c).trans (congrArg₂ _ (norm21 m ρ c) (arg_at m ρ c main_arg11 21)))

end Cert.KernelIdeal.Chain

end
-- ==== Proof.Reg.Seg11.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg11

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid11.N, (fun a => win11_0.index t a * win11_0.size a) = ![2000 * t.val, 0]
    ∧ (fun a => win11_1.index t a * win11_1.size a) = ![2000 * t.val, 0]
    ∧ (fun a => win11_2.index t a * win11_2.size a) = fun _ => 0 := by decide +kernel

/-- The first point stores the step over the cleared table. -/
theorem first (t : Fin cfg11.N) (h : t.val % 50 = 0) :
    outsAt11 V c t.val t.isLt = k11_pay2 (iblk11 V c 1 t) (iblk11 V c 0 t) (k11_pay1 (F := Ideal)) := by
  rw [outsAt11_A V c t h]
  unfold out11_A_2 kernelRun11_A
  sl_unfold_words
  rw [read_writes_unit_zero _ _ zero2]
  simp only [View.readCov_unit_zero (S := S1000x64) _ zero2, View.readAt_eq_ld, (hs11_0 t).read_unread,
    (hs11_1 t).read_unread]
  congr 1 <;> exact ld_whole _ _

/-- A later point stores the step over what the point before left. -/
theorem later (t : Fin cfg11.N) (h : ¬t.val % 50 = 0) :
    outsAt11 V c t.val t.isLt = k11_pay2 (iblk11 V c 1 t) (iblk11 V c 0 t) (outsAt11 V c (t.val - 1) (by omega)) := by
  rw [outsAt11_B V c t h]
  unfold out11_B_2 kernelRun11_B
  rw [read_writes_unit_zero _ _ zero2]
  simp only [View.readAt_eq_ld, (hs11_0 t).read_unread, (hs11_1 t).read_unread, (hs11_2 t).read_unread]
  congr 1 <;> exact ld_whole _ _

end Seg11

/-- After the last point the output array is the segment sum of the two input arrays. -/
theorem seg11 (V : (c : Dev nD) → (b : Ref sig .tc) → Buf (Elt Ideal) ((c : Thread nD τ).loc b)) (c : Dev nD) :
    (dat11 (F := Ideal) V c).arrAt 2 cfg11.N
      = GraphNet.segSum (N := 100000) (G := 1000) (C := 64) (V c (Pipeline.arrRef spec11 0)) (V c (Pipeline.arrRef spec11 1)) :=
  arrAt_of_last (dat11 V c) 2 N_11 flush11_2 _
    (fun t h => (segSum_of_steps N_11 _ _ (iblk11 V c 0) (iblk11 V c 1) (fun t r f h => read_rows _ (Seg11.offs t).1 _ r f h)
      (fun t r h => read_rows _ (Seg11.offs t).2.1 _ r 0 h) (k11_pay2 (F := Ideal)) k11_pay1
      (fun ids x acc g f => seg_step dot_S2000x1000_S2000x64_S1000x64_0_0_1_1_n_n rfl ids x _ (shapeCast_self x _) acc _ _ g f)
      (fun _ => Ideal.ofBits_zero_f32) (outsAt11 V c) (Seg11.first V c) (Seg11.later V c) t h).trans
      (Memref.read_access_unit_zero (Elt Ideal) main_v117 (Seg11.offs t).2.2 _ _).symm)
    fun t i => by rw [View.set_slice_whole]; exact View.mem_set_unit_zero (Seg11.offs t).2.2 _ i

end Cert.KernelIdeal.RegVal

end
-- ==== Proof.Reg.Centre12.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem c12_idx : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (∀ a, win12_2.index t a = 0) ∧ (∀ a, win12_3.index t a = 0)
    ∧ win12_4.index t (0 : Fin 2) = t.val ∧ win12_4.index t (1 : Fin 2) = 0 :=
  (by decide +kernel : ∀ t : Fin grid12.N, _)

variable (V : (c : Dev nD) → (b : Ref sig .tc) → Buf (Elt Ideal) ((c : Thread nD τ).loc b)) (c : Dev nD) (t : Fin cfg12.N)

/-- A window that sits at block 0 of an array of its own size holds the whole array. -/
theorem c12_whole :
    iblk12 V c 2 t = V c (Pipeline.arrRef spec12 2)
    ∧ iblk12 V c 3 t = V c (Pipeline.arrRef spec12 3) :=
  ⟨funext fun y => congrArg (V c (Pipeline.arrRef spec12 2)) (funext fun a =>
    Fin.ext (win12_2.rect_emb_val_of_index_zero t a ((c12_idx t).2.2.1 a) y)),
   funext fun y => congrArg (V c (Pipeline.arrRef spec12 3)) (funext fun a =>
    Fin.ext (win12_3.rect_emb_val_of_index_zero t a ((c12_idx t).2.2.2.1 a) y))⟩

/-- A window at block (t, 0) holds rows 2000·t … of its array. -/
theorem c12_rows :
    (∀ (y : S2000x64.Idx) (k : S100000x64.Idx), (k 0).val = 2000 * t.val + (y 0).val → (k 1).val = (y 1).val →
      iblk12 V c 0 t y = V c (Pipeline.arrRef spec12 0) k)
    ∧ ∀ (y : S2000x1.Idx) (k : S100000x1.Idx), (k 0).val = 2000 * t.val + (y 0).val → (k 1).val = (y 1).val →
      iblk12 V c 1 t y = V c (Pipeline.arrRef spec12 1) k := by
  obtain ⟨⟨a0, b0⟩, ⟨a1, b1⟩, -⟩ := c12_idx t
  exact ⟨fun y k h0 h1 => congrArg (V c (Pipeline.arrRef spec12 0)) (Shape.idx_ext₂
      (by show win12_0.index t (0 : Fin 2) * 2000 + 1 * _ = _; omega)
      (by show win12_0.index t (1 : Fin 2) * 64 + 1 * _ = _; omega)),
    fun y k h0 h1 => congrArg (V c (Pipeline.arrRef spec12 1)) (Shape.idx_ext₂
      (by show win12_1.index t (0 : Fin 2) * 2000 + 1 * _ = _; omega)
      (by show win12_1.index t (1 : Fin 2) * 1 + 1 * _ = _; omega))⟩

/-- What point t writes back is its rows of the centred array. -/
theorem c12_flush :
    (dat12 (F := Ideal) V c).flushed 4 t = ((cfg12.win 4).blk t).view.read (Elt Ideal)
      (GraphNet.centre (N := 100000) (G := 1000) (C := 64) (V c (Pipeline.arrRef spec12 0)) (V c (Pipeline.arrRef spec12 1))
        (V c (Pipeline.arrRef spec12 2)) (V c (Pipeline.arrRef spec12 3))) := by
  have ho := (c12_idx t).2.2.2.2
  show (cfg12.win 4).cut (grid12.coords t) ((dat12 V c).after 4 t) = _
  simp only [after12_4, out12_4, LibRows.canon_whole, LibRows.ld_whole, k12_pay1, shapeCast_self]
  funext j
  exact centre_entry (C := 64) _ rfl _ _ (V c (Pipeline.arrRef spec12 0)) (V c (Pipeline.arrRef spec12 1))
    (V c (Pipeline.arrRef spec12 2)) (V c (Pipeline.arrRef spec12 3)) _ _ _ _
    (c12_whole V c t).1 (c12_whole V c t).2
    _ (onehot_flat_entry _) t.val j (((cfg12.win 4).blk t).view.emb j)
    (by show win12_4.index t (0 : Fin 2) * 2000 + 1 * _ = _; omega)
    (by show win12_4.index t (1 : Fin 2) * 64 + 1 * _ = _; omega)
    (c12_rows V c t).1 (c12_rows V c t).2

/-- Row n lies in the block of point n / 2000. -/
theorem c12_cover (i : S100000x64.Idx) :
    ∃ t : Fin cfg12.N, (cfg12.win 4).flush t = true ∧ i ∈ ((cfg12.win 4).blk t).view.set := by
  obtain ⟨t, ht⟩ := LibRows.rows_cover (NB := cfg12.N) (R := 2000) (fun t a => win12_4.index t a * S2000x64.size a)
    (fun t a => Pipeline.Clip.inb (win12_4.hclip (grid12.coords t) a))
    (fun t => by show _ * 2000 = _; rw [(c12_idx t).2.2.2.2.1]; omega)
    (fun t => by show _ * 64 = _; rw [(c12_idx t).2.2.2.2.2]) (by show grid12.N * 2000 = _; rw [N_12]) i
  refine ⟨t, flush12_4 t, ?_⟩
  rw [show ((cfg12.win 4).blk t).view.set = (win12_4.rect t).set from View.set_slice_whole _ _]
  exact ht

theorem centre12 :
    (dat12 (F := Ideal) V c).arrAt 4 cfg12.N
      = GraphNet.centre (N := 100000) (G := 1000) (C := 64) (V c (Pipeline.arrRef spec12 0)) (V c (Pipeline.arrRef spec12 1))
          (V c (Pipeline.arrRef spec12 2)) (V c (Pipeline.arrRef spec12 3)) :=
  (dat12 (F := Ideal) V c).arrAt_eq_of_cover 4 _ (fun t _ => c12_flush V c t) c12_cover

end Cert.KernelIdeal.RegVal

end
-- ==== Proof.Reg.Seg13.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg13

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid13.N, (fun a => win13_0.index t a * win13_0.size a) = ![2000 * t.val, 0]
    ∧ (fun a => win13_1.index t a * win13_1.size a) = ![2000 * t.val, 0]
    ∧ (fun a => win13_2.index t a * win13_2.size a) = fun _ => 0 := by decide +kernel

/-- The first point stores the step over the cleared table. -/
theorem first (t : Fin cfg13.N) (h : t.val % 50 = 0) :
    outsAt13 V c t.val t.isLt = k13_pay2 (iblk13 V c 1 t) (iblk13 V c 0 t) (k13_pay1 (F := Ideal)) := by
  rw [outsAt13_A V c t h]
  unfold out13_A_2 kernelRun13_A
  sl_unfold_words
  rw [read_writes_unit_zero _ _ zero2]
  simp only [View.readCov_unit_zero (S := S1000x64) _ zero2, View.readAt_eq_ld, (hs13_0 t).read_unread,
    (hs13_1 t).read_unread]
  congr 1 <;> exact ld_whole _ _

/-- A later point stores the step over what the point before left. -/
theorem later (t : Fin cfg13.N) (h : ¬t.val % 50 = 0) :
    outsAt13 V c t.val t.isLt = k13_pay2 (iblk13 V c 1 t) (iblk13 V c 0 t) (outsAt13 V c (t.val - 1) (by omega)) := by
  rw [outsAt13_B V c t h]
  unfold out13_B_2 kernelRun13_B
  rw [read_writes_unit_zero _ _ zero2]
  simp only [View.readAt_eq_ld, (hs13_0 t).read_unread, (hs13_1 t).read_unread, (hs13_2 t).read_unread]
  congr 1 <;> exact ld_whole _ _

end Seg13

/-- After the last point the output array is the segment sum of the two input arrays. -/
theorem seg13 (V : (c : Dev nD) → (b : Ref sig .tc) → Buf (Elt Ideal) ((c : Thread nD τ).loc b)) (c : Dev nD) :
    (dat13 (F := Ideal) V c).arrAt 2 cfg13.N
      = GraphNet.segSum (N := 100000) (G := 1000) (C := 64) (V c (Pipeline.arrRef spec13 0)) (V c (Pipeline.arrRef spec13 1)) :=
  arrAt_of_last (dat13 V c) 2 N_13 flush13_2 _
    (fun t h => (segSum_of_steps N_13 _ _ (iblk13 V c 0) (iblk13 V c 1) (fun t r f h => read_rows _ (Seg13.offs t).1 _ r f h)
      (fun t r h => read_rows _ (Seg13.offs t).2.1 _ r 0 h) (k13_pay2 (F := Ideal)) k13_pay1
      (fun ids x acc g f => seg_step dot_S2000x1000_S2000x64_S1000x64_0_0_1_1_n_n rfl ids x _ (shapeCast_self x _) acc _ _ g f)
      (fun _ => Ideal.ofBits_zero_f32) (outsAt13 V c) (Seg13.first V c) (Seg13.later V c) t h).trans
      (Memref.read_access_unit_zero (Elt Ideal) main_v122 (Seg13.offs t).2.2 _ _).symm)
    fun t i => by rw [View.set_slice_whole]; exact View.mem_set_unit_zero (Seg13.offs t).2.2 _ i

end Cert.KernelIdeal.RegVal

end
-- ==== Proof.Reg.Scale14.lean ====
import proofs.«417558_j31903017075238_1_alg».proof.Proof.Gen.KernelIdeal.Frame
import proofs.«417558_j31903017075238_1_alg».proof.Proof.Reg.OneHot
import proofs.«417558_j31903017075238_1_alg».proof.Proof.Reg.LibRows
import proofs.«417558_j31903017075238_1_alg».proof.Proof.Reg.LibNorm

noncomputable section

namespace Cert.KernelIdeal.RegVal

open Cert.KernelIdeal Cert.KernelIdeal.Gen Idealize.ShloMosaic Idealize.ShloMosaic.TcCoe Idealize.SL.Sem GraphNet

theorem scale14_idx : ∀ t : Fin cfg14.N,
    (win14_0.index t (0 : Fin 2) = t.val ∧ win14_0.index t (1 : Fin 2) = 0)
    ∧ (win14_1.index t (0 : Fin 2) = t.val ∧ win14_1.index t (1 : Fin 2) = 0)
    ∧ (∀ a, win14_2.index t a = 0) ∧ (∀ a, win14_3.index t a = 0) ∧ (∀ a, win14_4.index t a = 0)
    ∧ win14_5.index t (0 : Fin 2) = t.val ∧ win14_5.index t (1 : Fin 2) = 0 :=
  (by decide +kernel : ∀ t : Fin grid14.N, _)

variable (V : (c : Dev nD) → (b : Ref sig .tc) → Buf (Elt Ideal) ((c : Thread nD τ).loc b)) (c : Dev nD) (t : Fin cfg14.N)

/-- A window that sits at block 0 of an array of its own size holds the whole array. -/
theorem scale14_whole :
    iblk14 V c 2 t = V c (Pipeline.arrRef spec14 2)
    ∧ iblk14 V c 3 t = V c (Pipeline.arrRef spec14 3)
    ∧ iblk14 V c 4 t = V c (Pipeline.arrRef spec14 4) :=
  ⟨funext fun y => congrArg (V c (Pipeline.arrRef spec14 2)) (funext fun a =>
    Fin.ext (win14_2.rect_emb_val_of_index_zero t a ((scale14_idx t).2.2.1 a) y)),
   funext fun y => congrArg (V c (Pipeline.arrRef spec14 3)) (funext fun a =>
    Fin.ext (win14_3.rect_emb_val_of_index_zero t a ((scale14_idx t).2.2.2.1 a) y)),
   funext fun y => congrArg (V c (Pipeline.arrRef spec14 4)) (funext fun a =>
    Fin.ext (win14_4.rect_emb_val_of_index_zero t a ((scale14_idx t).2.2.2.2.1 a) y))⟩

/-- A window at block (t, 0) holds rows 2000·t … of its array. -/
theorem scale14_rows :
    (∀ (y : S2000x64.Idx) (k : S100000x64.Idx), (k 0).val = 2000 * t.val + (y 0).val → (k 1).val = (y 1).val →
      iblk14 V c 0 t y = V c (Pipeline.arrRef spec14 0) k)
    ∧ ∀ (y : S2000x1.Idx) (k : S100000x1.Idx), (k 0).val = 2000 * t.val + (y 0).val → (k 1).val = (y 1).val →
      iblk14 V c 1 t y = V c (Pipeline.arrRef spec14 1) k := by
  obtain ⟨⟨a0, b0⟩, ⟨a1, b1⟩, -⟩ := scale14_idx t
  exact ⟨fun y k h0 h1 => congrArg (V c (Pipeline.arrRef spec14 0)) (Shape.idx_ext₂
      (by show win14_0.index t (0 : Fin 2) * 2000 + 1 * _ = _; omega)
      (by show win14_0.index t (1 : Fin 2) * 64 + 1 * _ = _; omega)),
    fun y k h0 h1 => congrArg (V c (Pipeline.arrRef spec14 1)) (Shape.idx_ext₂
      (by show win14_1.index t (0 : Fin 2) * 2000 + 1 * _ = _; omega)
      (by show win14_1.index t (1 : Fin 2) * 1 + 1 * _ = _; omega))⟩

/-- What point t writes back is its rows of the rescaled array. -/
theorem scale14_flush :
    (dat14 (F := Ideal) V c).flushed 5 t = ((cfg14.win 5).blk t).view.read (Elt Ideal)
      (GraphNet.scale (N := 100000) (G := 1000) (C := 64) (V c (Pipeline.arrRef spec14 0)) (V c (Pipeline.arrRef spec14 1))
        (V c (Pipeline.arrRef spec14 2)) (V c (Pipeline.arrRef spec14 3)) (V c (Pipeline.arrRef spec14 4))) := by
  have ho := (scale14_idx t).2.2.2.2.2
  show (cfg14.win 5).cut (grid14.coords t) ((dat14 V c).after 5 t) = _
  simp only [after14_5, out14_5, LibRows.canon_whole, LibRows.ld_whole, k14_pay1, shapeCast_self]
  funext j
  exact scale_entry (C := 64) _ rfl _ _ (V c (Pipeline.arrRef spec14 0)) (V c (Pipeline.arrRef spec14 1))
    (V c (Pipeline.arrRef spec14 2)) (V c (Pipeline.arrRef spec14 3)) (V c (Pipeline.arrRef spec14 4)) _ _ _ _ _
    (scale14_whole V c t).1 (scale14_whole V c t).2.1 (scale14_whole V c t).2.2
    _ (onehot_flat_entry _) t.val j (((cfg14.win 5).blk t).view.emb j)
    (by show win14_5.index t (0 : Fin 2) * 2000 + 1 * _ = _; omega)
    (by show win14_5.index t (1 : Fin 2) * 64 + 1 * _ = _; omega)
    (scale14_rows V c t).1 (scale14_rows V c t).2

/-- Row n lies in the block of point n / 2000. -/
theorem scale14_cover (i : S100000x64.Idx) :
    ∃ t : Fin cfg14.N, (cfg14.win 5).flush t = true ∧ i ∈ ((cfg14.win 5).blk t).view.set := by
  obtain ⟨t, ht⟩ := LibRows.rows_cover (NB := cfg14.N) (R := 2000) (fun t a => win14_5.index t a * S2000x64.size a)
    (fun t a => Pipeline.Clip.inb (win14_5.hclip (grid14.coords t) a))
    (fun t => by show _ * 2000 = _; rw [(scale14_idx t).2.2.2.2.2.1]; omega)
    (fun t => by show _ * 64 = _; rw [(scale14_idx t).2.2.2.2.2.2]) (by show grid14.N * 2000 = _; rw [N_14]) i
  refine ⟨t, flush14_5 t, ?_⟩
  rw [show ((cfg14.win 5).blk t).view.set = (win14_5.rect t).set from View.set_slice_whole _ _]
  exact ht

theorem scale14 :
    (dat14 (F := Ideal) V c).arrAt 5 cfg14.N
      = GraphNet.scale (N := 100000) (G := 1000) (C := 64) (V c (Pipeline.arrRef spec14 0)) (V c (Pipeline.arrRef spec14 1))
          (V c (Pipeline.arrRef spec14 2)) (V c (Pipeline.arrRef spec14 3)) (V c (Pipeline.arrRef spec14 4)) :=
  (dat14 (F := Ideal) V c).arrAt_eq_of_cover 5 _ (fun t _ => scale14_flush V c t) scale14_cover

end Cert.KernelIdeal.RegVal

end
-- ==== Proof.Reg.Mm15.lean ====
import proofs.«417558_j31903017075238_1_alg».proof.Proof.Gen.KernelIdeal.Frame
import proofs.«417558_j31903017075238_1_alg».proof.Proof.Reg.Dense
import proofs.«417558_j31903017075238_1_alg».proof.Proof.Reg.LibRows

noncomputable section

namespace Cert.KernelIdeal.RegVal

open Cert.KernelIdeal Cert.KernelIdeal.Gen Idealize.ShloMosaic Idealize.ShloMosaic.TcCoe
open Idealize.ShloMosaic.ValueIdx Idealize.SL.Sem GraphNet GraphNet.Dense

/-- The feature and result blocks of point t sit at block row t, column block 0; the weights block at (0, 0). -/
theorem idx15 : ∀ t : Fin cfg15.N, (win15_0.index t 0 = t.val ∧ win15_0.index t 1 = 0) ∧ (∀ a, win15_1.index t a = 0)
    ∧ win15_2.index t 0 = t.val ∧ win15_2.index t 1 = 0 :=
  (by decide +kernel : ∀ t : Fin grid15.N, _)

/-- The block the body leaves is the product of the two blocks it loads. -/
theorem out15_eq (x : Vec Ideal S2000x64 .f32) (w : Vec Ideal S64x64 .f32) : out15_2 (F := Ideal) x w = GraphNet.mm x w := by
  rw [out15_2, LibRows.canon_whole]
  simp only [LibRows.ld_whole]
  refine (mmK_eq _ rfl _ _ _ _).trans ?_
  rw [shapeCast_self]

variable (V : (c : Dev nD) → (b : Ref sig .tc) → Buf (Elt Ideal) ((c : Thread nD τ).loc b))

/-- Point t writes back rows 2000·t … 2000·t+1999 of the product of the two arrays. -/
theorem flushed15 (c : Dev nD) (t : Fin cfg15.N) :
    (dat15 (F := Ideal) V c).flushed 2 t = ((cfg15.win 2).blk t).view.read (Elt Ideal)
      (GraphNet.mm (R := 100000) (K := 64) (M := 64) (V c (Pipeline.arrRef spec15 0)) (V c (Pipeline.arrRef spec15 1))) := by
  obtain ⟨⟨a0, b0⟩, z1, a2, b2⟩ := idx15 t
  show (cfg15.win 2).cut (grid15.coords t) ((dat15 V c).after 2 t) = _
  rw [after15_2, out15_eq, show iblk15 V c 1 t = V c (Pipeline.arrRef spec15 1) from read_whole (Pipeline.arrRef spec15 1) z1 _ _]
  funext j
  exact mm_rows _ _ ((cfg15.win 0).blk t).view.emb j (((cfg15.win 2).blk t).view.emb j)
    (fun k => by show win15_0.index t 0 * 2000 + 1 * (j 0).val = win15_2.index t 0 * 2000 + 1 * (j 0).val; omega)
    (fun k => by show win15_0.index t 1 * 64 + 1 * k.val = k.val; omega)
    (by show (j 1).val = win15_2.index t 1 * 64 + 1 * (j 1).val; omega)

/-- The blocks of 2000 rows cover the 100000 rows, so the array ends holding the product. -/
theorem mm15 (c : Dev nD) :
    (dat15 (F := Ideal) V c).arrAt 2 cfg15.N
      = GraphNet.mm (R := 100000) (K := 64) (M := 64) (V c (Pipeline.arrRef spec15 0)) (V c (Pipeline.arrRef spec15 1)) :=
  (dat15 (F := Ideal) V c).arrAt_eq_of_cover 2 _ (fun t _ => flushed15 V c t) fun i => by
    obtain ⟨t, ht⟩ := LibRows.rows_cover (NB := cfg15.N) (R := 2000) (fun t a => win15_2.index t a * S2000x64.size a)
      (fun t a => Pipeline.Clip.inb (win15_2.hclip (grid15.coords t) a)) (fun t => by show _ * 2000 = _; rw [(idx15 t).2.2.1]; omega)
      (fun t => by show _ * 64 = _; rw [(idx15 t).2.2.2]) (by show grid15.N * 2000 = _; rw [N_15]) i
    exact ⟨t, flush15_2 t, (View.set_slice_whole main_v126 (win15_2.rect t)).symm ▸ ht⟩

end Cert.KernelIdeal.RegVal

end
-- ==== Proof.KChainC.lean ====
import proofs.«417558_j31903017075238_1_alg».proof.Proof.KChainB
import proofs.«417558_j31903017075238_1_alg».proof.Proof.LibTRef
import proofs.«417558_j31903017075238_1_alg».proof.Proof.Reg.Seg11
import proofs.«417558_j31903017075238_1_alg».proof.Proof.Reg.Centre12
import proofs.«417558_j31903017075238_1_alg».proof.Proof.Reg.Seg13
import proofs.«417558_j31903017075238_1_alg».proof.Proof.Reg.Scale14
import proofs.«417558_j31903017075238_1_alg».proof.Proof.Reg.Mm15

set_option maxRecDepth 16384
set_option quotPrecheck false
set_option maxHeartbeats 1000000

noncomputable section

namespace Cert.KernelIdeal.Chain

open Cert.KernelIdeal Cert.KernelIdeal.Gen Cert.KernelIdeal.Fold Idealize.ShloMosaic Idealize.ShloMosaic.TcCoe
open Idealize.ShloMosaic.StableHlo Idealize.SL.Sem

variable (m : (ℓ : Loc nD τ sig) → Buf (Elt Ideal) ℓ) (ρ : Dev nD → PrngReg) (c : Dev nD)

local notation "𝔞" r:max => m ((c.tc : Thread nD τ).loc r)

theorem conv23_of (W : Valuation τ sig (Elt Ideal)) : after hostOps11 W (Proc.devRef .tc main_v112)
    = Stage.conv (W (Proc.devRef .tc main_v77)) (W (Proc.devRef .tc main_v1)) (W (Proc.devRef .tc main_v3))
        (W (Proc.devRef .tc main_v15)) (W (Proc.devRef .tc main_v14)) (W (Proc.devRef .tc main_arg12)) := by
  after_results_simp <;> rfl
theorem relu24_of (W : Valuation τ sig (Elt Ideal)) : after hostOps11_1 W (Proc.devRef .tc main_v113)
    = Stage.relu (W (Proc.devRef .tc main_v112)) := by
  after_results
  simp only [TRef.ofBuf_toBuf]
  rfl

theorem X2_24 : Wn m ρ 24 c (Proc.devRef .tc main_v113) = X2 m c :=
  (relu24_of (Wn m ρ 23 c)).trans (by
    rw [show Wn m ρ 23 c = after hostOps11 (Wn m ρ 22 c) by simp only [Wn, List.getD_cons_succ, List.getD_cons_zero], conv23_of,
      proj22 m ρ c, src_at m ρ c 22, dst_at m ρ c 22, dinv_at m ρ c 22, deg_at m ρ c 22, arg_at m ρ c main_arg12 22]
    rfl)
theorem X2_at (j : Nat) (h : 24 ≤ j := by decide) (hj : j ≤ 38 := by decide) : Wn m ρ j c (Proc.devRef .tc main_v113) = X2 m c :=
  hold m ρ c 24 (X2_24 m ρ c) j (hij := h) (hj := hj)

theorem w31 : Wn m ρ 31 c (Proc.devRef .tc main_v114) = Stage.row64 (𝔞 main_arg13) :=
  hold m ρ c 25 (by show after hostOps11_2 (Wn m ρ 24 c) (Proc.devRef .tc main_v114) = _; after_results; rw [arg_at m ρ c main_arg13 24]; rfl) 31
theorem b31 : Wn m ρ 31 c (Proc.devRef .tc main_v115) = Stage.row64 (𝔞 main_arg14) :=
  hold m ρ c 25 (by show after hostOps11_2 (Wn m ρ 24 c) (Proc.devRef .tc main_v115) = _; after_results; rw [arg_at m ρ c main_arg14 24]; rfl) 31
theorem a27 : Wn m ρ 27 c (Proc.devRef .tc main_v116) = Stage.row64 (𝔞 main_arg15) :=
  hold m ρ c 25 (by show after hostOps11_2 (Wn m ρ 24 c) (Proc.devRef .tc main_v116) = _; after_results; rw [arg_at m ρ c main_arg15 24]; rfl) 27

theorem sum26 : Wn m ρ 26 c (Proc.devRef .tc main_v117)
    = GraphNet.segSum (N := 100000) (G := 1000) (C := 64) (X2 m c) (Stage.ids (𝔞 main_arg2)) :=
  (W26_arr m ρ c 2).trans ((RegVal.seg11 (V25 m ρ) c).trans (congrArg₂ _ (X2_at m ρ c 25) (ids_at m ρ c 25)))

theorem mean27 : Wn m ρ 27 c (Proc.devRef .tc main_v119) = Stage.mean64 (X2 m c) (𝔞 main_arg2) := by
  show after hostOps12 (Wn m ρ 26 c) (Proc.devRef .tc main_v119) = _
  after_results
  rw [sum26 m ρ c, counts_at m ρ c 26]; rfl

theorem centred28_at (j : Nat) (h : 28 ≤ j := by decide) (hj : j ≤ 38 := by decide) :
    Wn m ρ j c (Proc.devRef .tc main_v120) = Stage.centred64 (X2 m c) (𝔞 main_arg2) (𝔞 main_arg15) :=
  hold m ρ c (b := main_v120) 28 ((W28_arr m ρ c 4).trans ((RegVal.centre12 (V27 m ρ) c).trans
    (congr (congr (congrArg₂ _ (X2_at m ρ c 27) (ids_at m ρ c 27)) (mean27 m ρ c)) (a27 m ρ c)))) j (hij := h) (hj := hj)

theorem sum30 : Wn m ρ 30 c (Proc.devRef .tc main_v122)
    = GraphNet.segSum (N := 100000) (G := 1000) (C := 64)
        (mulf (Stage.centred64 (X2 m c) (𝔞 main_arg2) (𝔞 main_arg15)) (Stage.centred64 (X2 m c) (𝔞 main_arg2) (𝔞 main_arg15)))
        (Stage.ids (𝔞 main_arg2)) :=
  (W30_arr m ρ c 2).trans ((RegVal.seg13 (V29 m ρ) c).trans (congrArg₂ _
    (by show after hostOps13 (Wn m ρ 28 c) (Proc.devRef .tc main_v121) = _; after_results; rw [centred28_at m ρ c 28]) (ids_at m ρ c 29)))

theorem var31 : Wn m ρ 31 c (Proc.devRef .tc main_v124) = Stage.var64 (X2 m c) (𝔞 main_arg2) (𝔞 main_arg15) := by
  show after hostOps14 (Wn m ρ 30 c) (Proc.devRef .tc main_v124) = _
  after_results
  rw [sum30 m ρ c, counts_at m ρ c 30]; rfl

theorem norm32 : Wn m ρ 32 c (Proc.devRef .tc main_v125)
    = Stage.gnorm64 (X2 m c) (𝔞 main_arg2) (𝔞 main_arg13) (𝔞 main_arg14) (𝔞 main_arg15) :=
  (W32_arr m ρ c 5).trans ((RegVal.scale14 (V31 m ρ) c).trans
    (congr (congr (congr (congrArg₂ _ (centred28_at m ρ c 31) (ids_at m ρ c 31)) (var31 m ρ c)) (w31 m ρ c)) (b31 m ρ c)))

theorem proj33 : Wn m ρ 33 c (Proc.devRef .tc main_v126)
    = GraphNet.mm (R := 100000) (K := 64) (M := 64)
        (Stage.gnorm64 (X2 m c) (𝔞 main_arg2) (𝔞 main_arg13) (𝔞 main_arg14) (𝔞 main_arg15)) (𝔞 main_arg16) :=
  (W33_arr m ρ c 2).trans ((RegVal.mm15 (V32 m ρ) c).trans (congrArg₂ _ (norm32 m ρ c) (arg_at m ρ c main_arg16 32)))

end Cert.KernelIdeal.Chain

end
-- ==== Proof.Reg.Seg16.lean ====
import proofs.«417558_j31903017075238_1_alg».proof.Proof.Gen.KernelIdeal.Frame
import proofs.«417558_j31903017075238_1_alg».proof.Proof.Reg.SegSum
import proofs.«417558_j31903017075238_1_alg».proof.Proof.Reg.SegStep
import proofs.«417558_j31903017075238_1_alg».proof.Proof.Reg.LibRows
import Idealize.ShloMosaic.Lib.Tactic

noncomputable section

namespace Cert.KernelIdeal.RegVal

open Cert.KernelIdeal Cert.KernelIdeal.Gen GraphNet.LibDot GraphNet.LibRows
open Idealize.ShloMosaic Idealize.ShloMosaic.TcCoe Idealize.ShloMosaic.ValueIdx Idealize.SL.Sem

namespace Seg16

variable (V : (c : Dev nD) → (b : Ref sig .tc) → Buf (Elt Ideal) ((c : Thread nD τ).loc b)) (c : Dev nD)

/-- Where each window's block starts: the two inputs' 2000 rows further down at each point, the table's at the origin. -/
theorem offs : ∀ t : Fin grid16.N, (fun a => win16_0.index t a * win16_0.size a) = ![2000 * t.val, 0]
    ∧ (fun a => win16_1.index t a * win16_1.size a) = ![2000 * t.val, 0]
    ∧ (fun a => win16_2.index t a * win16_2.size a) = fun _ => 0 := by decide +kernel

/-- The first point stores the step over the cleared table. -/
theorem first (t : Fin cfg16.N) (h : t.val % 50 = 0) :
    outsAt16 V c t.val t.isLt = k16_pay2 (iblk16 V c 1 t) (iblk16 V c 0 t) (k16_pay1 (F := Ideal)) := by
  rw [outsAt16_A V c t h]
  unfold out16_A_2 kernelRun16_A
  sl_unfold_words
  rw [read_writes_unit_zero _ _ zero2]
  simp only [View.readCov_unit_zero (S := S1000x64) _ zero2, View.readAt_eq_ld, (hs16_0 t).read_unread,
    (hs16_1 t).read_unread]
  congr 1 <;> exact ld_whole _ _

/-- A later point stores the step over what the point before left. -/
theorem later (t : Fin cfg16.N) (h : ¬t.val % 50 = 0) :
    outsAt16 V c t.val t.isLt = k16_pay2 (iblk16 V c 1 t) (iblk16 V c 0 t) (outsAt16 V c (t.val - 1) (by omega)) := by
  rw [outsAt16_B V c t h]
  unfold out16_B_2 kernelRun16_B
  rw [read_writes_unit_zero _ _ zero2]
  simp only [View.readAt_eq_ld, (hs16_0 t).read_unread, (hs16_1 t).read_unread, (hs16_2 t).read_unread]
  congr 1 <;> exact ld_whole _ _

end Seg16

/-- After the last point the output array is the segment sum of the two input arrays. -/
theorem seg16 (V : (c : Dev nD) → (b : Ref sig .tc) → Buf (Elt Ideal) ((c : Thread nD τ).loc b)) (c : Dev nD) :
    (dat16 (F := Ideal) V c).arrAt 2 cfg16.N
      = GraphNet.segSum (N := 100000) (G := 1000) (C := 64) (V c (Pipeline.arrRef spec16 0)) (V c (Pipeline.arrRef spec16 1)) :=
  arrAt_of_last (dat16 V c) 2 N_16 flush16_2 _
    (fun t h => (segSum_of_steps N_16 _ _ (iblk16 V c 0) (iblk16 V c 1) (fun t r f h => read_rows _ (Seg16.offs t).1 _ r f h)
      (fun t r h => read_rows _ (Seg16.offs t).2.1 _ r 0 h) (k16_pay2 (F := Ideal)) k16_pay1
      (fun ids x acc g f => seg_step dot_S2000x1000_S2000x64_S1000x64_0_0_1_1_n_n rfl ids x _ (shapeCast_self x _) acc _ _ g f)
      (fun _ => Ideal.ofBits_zero_f32) (outsAt16 V c) (Seg16.first V c) (Seg16.later V c) t h).trans
      (Memref.read_access_unit_zero (Elt Ideal) main_v163 (Seg16.offs t).2.2 _ _).symm)
    fun t i => by rw [View.set_slice_whole]; exact View.mem_set_unit_zero (Seg16.offs t).2.2 _ i

end Cert.KernelIdeal.RegVal

end
-- ==== Proof.Reg.Head17.lean ====
import proofs.«417558_j31903017075238_1_alg».proof.Proof.Gen.KernelIdeal.Frame
import proofs.«417558_j31903017075238_1_alg».proof.Proof.Reg.Dense
import proofs.«417558_j31903017075238_1_alg».proof.Proof.Reg.LibRows

noncomputable section

namespace Cert.KernelIdeal.RegVal

open Cert.KernelIdeal Cert.KernelIdeal.Gen Idealize.ShloMosaic Idealize.ShloMosaic.TcCoe
open Idealize.ShloMosaic.ValueIdx Idealize.SL.Sem GraphNet GraphNet.Dense

/-- The block the body leaves is the softmax of the logits of the hidden layer: the classifier head of the specification. -/
theorem out17_eq_head (x0 : Vec Ideal S1000x64 .f32) (x1 : Vec Ideal S64x64 .f32) (x2 : Vec Ideal S1x64 .f32)
    (x3 : Vec Ideal S64x2 .f32) (x4 : Vec Ideal S1x2 .f32) :
    out17_5 (F := Ideal) x0 x1 x2 x3 x4 = GraphNet.head (R := 1000) (K := 64) (M := 64) (C := 2) x0 x1 x2 x3 x4 := by
  rw [out17_5, LibRows.canon_whole]
  simp only [LibRows.ld_whole]
  refine (softmaxK_eq _ _ _ _ _ _ _).trans (congrArg GraphNet.softmaxRows ((denseK_eq _ rfl _ x3 _ _ _ _).trans ?_))
  simp only [shapeCast_self]
  exact congrArg (fun H (i : S1000x2.Idx) => GraphNet.mm H x3 i + x4 (ix2 0 (i 1))) (reluK_eq x0 x1 x2 _ (denseK_eq _ rfl x0 x1 x2 _ _ _))

/-- At the grid's one point every window of the head sits at block index zero on both axes. -/
theorem idx17 : ∀ (t : Fin cfg17.N) (w : Fin cfg17.W) (a), (cfg17.win w).index t a = 0 :=
  (by decide +kernel : ∀ (t : Fin grid17.N) (w : Fin 6) (a), (cfg17.win w).index t a = 0)

variable (V : (c : Dev nD) → (b : Ref sig .tc) → Buf (Elt Ideal) ((c : Thread nD τ).loc b))

/-- Each input block is its whole array. -/
theorem blk17_0 (c : Dev nD) (t : Fin cfg17.N) : (iblk17 V c 0 t : Vec Ideal S1000x64 .f32) = V c (Pipeline.arrRef spec17 0) := read_whole main_v165 (idx17 t 0) _ _
theorem blk17_1 (c : Dev nD) (t : Fin cfg17.N) : (iblk17 V c 1 t : Vec Ideal S64x64 .f32) = V c (Pipeline.arrRef spec17 1) := read_whole main_arg18 (idx17 t 1) _ _
theorem blk17_2 (c : Dev nD) (t : Fin cfg17.N) : (iblk17 V c 2 t : Vec Ideal S1x64 .f32) = V c (Pipeline.arrRef spec17 2) := read_whole main_v166 (idx17 t 2) _ _
theorem blk17_3 (c : Dev nD) (t : Fin cfg17.N) : (iblk17 V c 3 t : Vec Ideal S64x2 .f32) = V c (Pipeline.arrRef spec17 3) := read_whole main_arg20 (idx17 t 3) _ _
theorem blk17_4 (c : Dev nD) (t : Fin cfg17.N) : (iblk17 V c 4 t : Vec Ideal S1x2 .f32) = V c (Pipeline.arrRef spec17 4) := read_whole main_v167 (idx17 t 4) _ _

/-- So the grid's one point writes the head of the five input arrays over the whole result. -/
theorem head17 (V : (c : Dev nD) → (b : Ref sig .tc) → Buf (Elt Ideal) ((c : Thread nD τ).loc b)) (c : Dev nD) :
    (dat17 (F := Ideal) V c).arrAt 5 cfg17.N
      = GraphNet.head (R := 1000) (K := 64) (M := 64) (C := 2) (V c (Pipeline.arrRef spec17 0)) (V c (Pipeline.arrRef spec17 1))
          (V c (Pipeline.arrRef spec17 2)) (V c (Pipeline.arrRef spec17 3)) (V c (Pipeline.arrRef spec17 4)) := by
  refine (dat17 (F := Ideal) V c).arrAt_eq_of_cover 5 _ (fun t _ => ?_) fun i => ⟨t17_0, flush17_5 _, ?_⟩
  · show (cfg17.win 5).cut (grid17.coords t) ((dat17 V c).after 5 t) = _
    rw [after17_5, out17_eq_head, blk17_0, blk17_1, blk17_2, blk17_3, blk17_4]
    exact (read_whole main_v168 (idx17 t 5) _ _).symm
  · exact (View.set_slice_whole main_v168 (win17_5.rect t17_0)).symm ▸
      View.mem_set_unit_zero (funext fun a => by rw [idx17 t17_0 5 a, Nat.zero_mul]) _ i

end Cert.KernelIdeal.RegVal

end
-- ==== Proof.KChainD.lean ====
import proofs.«417558_j31903017075238_1_alg».proof.Proof.KChainC
import proofs.«417558_j31903017075238_1_alg».proof.Proof.Reg.Seg16
import proofs.«417558_j31903017075238_1_alg».proof.Proof.Reg.Head17

set_option maxRecDepth 16384
set_option quotPrecheck false
set_option maxHeartbeats 1000000

noncomputable section

namespace Cert.KernelIdeal.Chain

open Cert.KernelIdeal Cert.KernelIdeal.Gen Cert.KernelIdeal.Fold Idealize.ShloMosaic Idealize.ShloMosaic.TcCoe
open Idealize.ShloMosaic.StableHlo Idealize.SL.Sem

variable (m : (ℓ : Loc nD τ sig) → Buf (Elt Ideal) ℓ) (ρ : Dev nD → PrngReg) (c : Dev nD)

local notation "𝔞" r:max => m ((c.tc : Thread nD τ).loc r)

theorem conv34_of (W : Valuation τ sig (Elt Ideal)) : after hostOps16 W (Proc.devRef .tc main_v161)
    = Stage.conv (W (Proc.devRef .tc main_v126)) (W (Proc.devRef .tc main_v1)) (W (Proc.devRef .tc main_v3))
        (W (Proc.devRef .tc main_v15)) (W (Proc.devRef .tc main_v14)) (W (Proc.devRef .tc main_arg17)) := by
  after_results_simp <;> rfl
theorem relu35_of (W : Valuation τ sig (Elt Ideal)) : after hostOps16_1 W (Proc.devRef .tc main_v162)
    = Stage.relu (W (Proc.devRef .tc main_v161)) := by
  after_results
  simp only [TRef.ofBuf_toBuf]
  rfl

theorem X3_35 : Wn m ρ 35 c (Proc.devRef .tc main_v162) = X3 m c :=
  (relu35_of (Wn m ρ 34 c)).trans (by
    rw [show Wn m ρ 34 c = after hostOps16 (Wn m ρ 33 c) by simp only [Wn, List.getD_cons_succ, List.getD_cons_zero], conv34_of,
      proj33 m ρ c, src_at m ρ c 33, dst_at m ρ c 33, dinv_at m ρ c 33, deg_at m ρ c 33, arg_at m ρ c main_arg17 33]
    rfl)

theorem sum36 : Wn m ρ 36 c (Proc.devRef .tc main_v163)
    = GraphNet.segSum (N := 100000) (G := 1000) (C := 64) (X3 m c) (Stage.ids (𝔞 main_arg2)) :=
  (W36_arr m ρ c 2).trans ((RegVal.seg16 (V35 m ρ) c).trans (congrArg₂ _ (X3_35 m ρ c) (ids_at m ρ c 35)))

theorem pooled37 : Wn m ρ 37 c (Proc.devRef .tc main_v165) = Stage.pooled (X3 m c) (𝔞 main_arg2) := by
  show after hostOps17 (Wn m ρ 36 c) (Proc.devRef .tc main_v165) = _
  after_results
  rw [sum36 m ρ c, counts_at m ρ c 36]; rfl
theorem bd37 : Wn m ρ 37 c (Proc.devRef .tc main_v166) = Stage.row64 (𝔞 main_arg19) := by
  show after hostOps17 (Wn m ρ 36 c) (Proc.devRef .tc main_v166) = _
  after_results
  rw [arg_at m ρ c main_arg19 36]; rfl
theorem bo37 : Wn m ρ 37 c (Proc.devRef .tc main_v167) = Stage.row2 (𝔞 main_arg21) := by
  show after hostOps17 (Wn m ρ 36 c) (Proc.devRef .tc main_v167) = _
  after_results
  rw [arg_at m ρ c main_arg21 36]; rfl

/-- The result buffer after the run holds the network's function of the arguments. -/
theorem kernel_value : W38 m ρ c (Proc.devRef .tc main_v168)
    = Stage.net (𝔞 main_arg0) (𝔞 main_arg1) (𝔞 main_arg2) (𝔞 main_arg3) (𝔞 main_arg4) (𝔞 main_arg5) (𝔞 main_arg6) (𝔞 main_arg7)
        (𝔞 main_arg8) (𝔞 main_arg9) (𝔞 main_arg10) (𝔞 main_arg11) (𝔞 main_arg12) (𝔞 main_arg13) (𝔞 main_arg14) (𝔞 main_arg15)
        (𝔞 main_arg16) (𝔞 main_arg17) (𝔞 main_arg18) (𝔞 main_arg19) (𝔞 main_arg20) (𝔞 main_arg21) :=
  (W38_arr m ρ c 5).trans ((RegVal.head17 (V37 m ρ) c).trans
    (congr (congr (congr (congrArg₂ _ (pooled37 m ρ c) (arg_at m ρ c main_arg18 37)) (bd37 m ρ c))
      (arg_at m ρ c main_arg20 37)) (bo37 m ρ c)))

end Cert.KernelIdeal.Chain

end
-- ==== Proof.PreRange.lean ====
import proofs.«417558_j31903017075238_1_alg».proof.Defs
import proofs.«417558_j31903017075238_1_alg».proof.Proof.Gen.Pre_finite_inputs
import proofs.«417558_j31903017075238_1_alg».proof.Proof.Gen.KernelIdeal
import Idealize.ShloMosaic.Lib.ReduceAll
import Idealize.ShloMosaic.Lib.ValueIdx

noncomputable section

open Idealize.ShloMosaic Idealize.ShloMosaic.ValueIdx Idealize.SL.Sem

namespace GraphNet

open Cert.Pre_finite_inputs

instance : Subsingleton S_.Idx := ⟨fun _ _ => funext fun d => d.elim0⟩

-- The last two conjuncts of the test say: every id word is at least 0, and every id word is below 1000 (both signed).
theorem part5_one (b : IVec S100000 32) (a20 : FVec Ideal S64x2 .f32) (a21 : FVec Ideal S2 .f32) (p : IVec S_ 1)
    (x : FVec Ideal S64 .f32) (k : FVec Ideal S_ .f32)
    (h : fn_part5 (F := Ideal) b a20 a21 p x k ix0 = 1#1) (n : Fin 100000) :
    0 ≤ (b (ix1 n)).toInt ∧ (b (ix1 n)).toInt < 1000 := by
  unfold fn_part5 at h
  dsimp only [fn_part6, andi] at h
  obtain ⟨hpq, hlt⟩ := IntOp.andi_eq_one.1 h
  have e0 := Host.reduce_andi_all _ _ _ _ _ (IntOp.andi_eq_one.1 hpq).2 (ix1 n)
  have e1 := Host.reduce_andi_all _ _ _ _ _ hlt (ix1 n)
  dsimp only [cmpi, broadcastInDim, constantI] at e0 e1
  rw [IntOp.cmpi_sge, show (0#32 : BitVec 32).toInt = 0 from by decide] at e0
  rw [IntOp.cmpi_slt, show (1000#32 : BitVec 32).toInt = 1000 from by decide] at e1
  exact ⟨e0, e1⟩

theorem batch_in_range
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 100000) :
    0 ≤ (m ((c.tc : Thread Cert.KernelIdeal.nD Cert.KernelIdeal.τ).loc Cert.KernelIdeal.main_arg2) (ix1 n)).toInt
      ∧ (m ((c.tc : Thread Cert.KernelIdeal.nD Cert.KernelIdeal.τ).loc Cert.KernelIdeal.main_arg2) (ix1 n)).toInt < 1000 := by
  have h1 := congrFun (h c) ix0
  unfold fn fn_part1 fn_part2 fn_part3 fn_part4 at h1
  exact part5_one _ _ _ _ _ _ h1 n

end GraphNet

end
-- ==== Proof.Bridge.Ops.lean ====
import proofs.«417558_j31903017075238_1_alg».proof.Proof.Spec
import proofs.«417558_j31903017075238_1_alg».proof.Proof.LibDot
import Idealize.ShloMosaic.PureOps.Ideal.Laws
import Idealize.ShloMosaic.Lib.Pipeline.Value
import Idealize.ShloMosaic.Lib.StableHlo.Predicate
import Idealize.ShloMosaic.Lib.ValueIdxRank1
import Idealize.ShloMosaic.Lib.Affine

noncomputable section

open Idealize.ShloMosaic Idealize.ShloMosaic.ValueIdx Idealize.ShloMosaic.StableHlo

namespace GraphNet.Bridge

-- On [0, 2³¹) the signed reading of a word determines the word.
theorem toInt_eq_natCast_iff (v : BitVec 32) (g : Nat) (hg : g < 2 ^ 31) :
    v.toInt = (g : Int) ↔ v = BitVec.ofNat 32 g := by
  rw [← Predicate.toInt_ofNat_small g hg, BitVec.toInt_inj]

-- A scalar broadcast is constant; a vector broadcast along rows (columns) reads the vector at the column (row).
theorem bcast_const {t : Shape} (h : (⟨0, ![]⟩ : Shape).BroadcastsInDim t (![] : Fin 0 → Fin t.rank)) (w : BitVec 32) :
    broadcastInDim t ![] h (constant (F := Ideal) (⟨0, ![]⟩ : Shape) .f32 w) = fun _ => Ideal.ofBits .f32 w :=
  funext fun i => broadcastInDim_apply _ h _ i ix0 (fun a => a.elim0)

theorem bcast_row {α : Type} {N C : Nat} (h1 : (⟨1, ![C]⟩ : Shape).BroadcastsInDim ⟨2, ![1, C]⟩ ![1])
    (h2 : (⟨2, ![1, C]⟩ : Shape).BroadcastsInDim ⟨2, ![N, C]⟩ ![0, 1]) (a : (⟨1, ![C]⟩ : Shape).Idx → α) :
    broadcastInDim ⟨2, ![N, C]⟩ ![0, 1] h2 (broadcastInDim ⟨2, ![1, C]⟩ ![1] h1 a) = fun i => a (ix1 (i 1)) :=
  funext fun i => (congrArg _ (eq_ix2 i)).trans ((Predicate.bcast_cols h1 h2 a (i 0) (i 1)).trans (congrArg a (eq_ix1 _)))

theorem bcast_col {α : Type} {N C : Nat} (h1 : (⟨1, ![N]⟩ : Shape).BroadcastsInDim ⟨2, ![N, 1]⟩ ![0])
    (h2 : (⟨2, ![N, 1]⟩ : Shape).BroadcastsInDim ⟨2, ![N, C]⟩ ![0, 1]) (a : (⟨1, ![N]⟩ : Shape).Idx → α) :
    broadcastInDim ⟨2, ![N, C]⟩ ![0, 1] h2 (broadcastInDim ⟨2, ![N, 1]⟩ ![0] h1 a) = fun i => a (ix1 (i 0)) :=
  funext fun i => (congrArg _ (eq_ix2 i)).trans ((Predicate.bcast_rows h1 h2 a (i 0) (i 1)).trans (congrArg a (eq_ix1 _)))

theorem bcast_col1 {α : Type} {N : Nat} (h1 : (⟨1, ![N]⟩ : Shape).BroadcastsInDim ⟨2, ![N, 1]⟩ ![0])
    (a : (⟨1, ![N]⟩ : Shape).Idx → α) : broadcastInDim ⟨2, ![N, 1]⟩ ![0] h1 a = fun i => a (ix1 (i 0)) :=
  funext fun i => broadcastInDim_apply _ h1 a i _ fun c => match c with
    | ⟨0, _⟩ => by show (i 0).val = if N = 1 then 0 else (i 0).val; have := idx2_lt0 i; split <;> omega

-- An update lands at r exactly when start plus window coordinate is r on every axis.
theorem resultIdx?_eq_some {s si u : Shape} (d : ScatterDims s si u) {w : Nat} (j : u.Idx) (idx : IVec si w) (r : s.Idx) :
    d.resultIdx? j idx = some r ↔ ∀ a, d.start j idx a + d.window j a = ((r a).val : Int) := by
  unfold ScatterDims.resultIdx?
  constructor
  · intro h a
    split at h
    · rename_i hr
      have e : (d.start j idx a + d.window j a).toNat = (r a).val := congrArg (fun k : s.Idx => (k a).val) (Option.some.inj h)
      have := (hr a).1
      omega
    · cases h
  · intro h
    rw [dif_pos fun a => by have := h a; have := (r a).isLt; omega]
    exact congrArg some (funext fun a => Fin.ext (show (d.start j idx a + d.window j a).toNat = (r a).val by rw [h a]; rfl))

-- The plain general product is the matrix product.
theorem dot_mm {R K M : Nat} (d : DotDims ⟨2, ![R, K]⟩ ⟨2, ![K, M]⟩ ⟨2, ![R, M]⟩) (hd : d = DotDims.plain R K M)
    (x : FVec Ideal ⟨2, ![R, K]⟩ .f32) (w : FVec Ideal ⟨2, ![K, M]⟩ .f32) : Host.dotGeneral d none x w = GraphNet.mm x w :=
  funext fun i => (congrArg _ (eq_ix2 i)).trans (GraphNet.LibDot.dotGeneral_plain d hd none x w (i 0) (i 1))

section Rows

abbrev rowScatter (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C : Nat} (wf : ScatterDims.WF ⟨2, ![G, C]⟩ ⟨2, ![N, 1]⟩ ⟨2, ![N, C]⟩ [1] [0] [0] 1)

theorem rowScatter_start {w : Nat} (n : Fin N) (c : Fin C) (idx : IVec ⟨2, ![N, 1]⟩ w) :
    (rowScatter G N C wf).start (ix2 n c) idx 0 = (idx (ix2 n 0)).toInt := by
  unfold ScatterDims.start
  rw [dif_pos (List.mem_singleton.mpr rfl)]
  exact congrArg (fun k => (idx k).toInt) (funext fun b => Fin.ext (by match b with | ⟨0, _⟩ => rfl | ⟨1, _⟩ => rfl))

-- Update (n, c) lands on (g, f) exactly when row n's id word is g and c = f.
theorem rowScatter_lands (hG : G ≤ 2 ^ 31) (idx : IVec ⟨2, ![N, 1]⟩ 32) (n : Fin N) (c : Fin C) (g : Fin G) (f : Fin C) :
    (rowScatter G N C wf).resultIdx? (ix2 n c) idx = some (ix2 g f) ↔ idx (ix2 n 0) = BitVec.ofNat 32 g.val ∧ c = f := by
  rw [resultIdx?_eq_some, ← toInt_eq_natCast_iff _ _ (by have := g.isLt; omega), Fin.forall_fin_two, rowScatter_start, Fin.ext_iff]
  show _ + ((0 : Nat) : Int) = (g.val : Int) ∧ (0 : Int) + ((c.val : Nat) : Int) = (f.val : Int) ↔ _
  omega

-- Into zeros, a row scatter-add is the segment sum.
theorem rowScatter_zero (hG : G ≤ 2 ^ 31) (z : FVec Ideal ⟨2, ![G, C]⟩ .f32) (hz : ∀ i, z i = 0)
    (idx : IVec ⟨2, ![N, 1]⟩ 32) (x : FVec Ideal ⟨2, ![N, C]⟩ .f32) :
    Host.scatterAdd (F := Ideal) (rowScatter G N C wf) z idx x = GraphNet.segSum x idx := by
  funext i
  obtain ⟨g, f, rfl⟩ : ∃ (g : Fin G) (f : Fin C), i = ix2 g f := ⟨i 0, i 1, eq_ix2 i⟩
  unfold Host.scatterAdd
  rw [Ideal.hostScatterAdd_def]
  unfold Ideal.hostScatterAdd
  rw [hz, zero_add, Finset.sum_filter, sum_idx2]
  show _ = ∑ n : Fin N, GraphNet.hot idx n g.val * x (ix2 n f)
  refine Finset.sum_congr rfl fun n _ => ?_
  simp only [rowScatter_lands wf hG, GraphNet.hot]
  by_cases hn : idx (ix2 n 0) = BitVec.ofNat 32 g.val
  · rw [if_pos hn, one_mul, Finset.sum_eq_single f (fun c _ hc => if_neg fun h => hc h.2)
      (fun h => absurd (Finset.mem_univ _) h), if_pos ⟨hn, rfl⟩]
  · rw [if_neg hn, zero_mul]
    exact Finset.sum_eq_zero fun c _ => if_neg fun h => hn h.1

end Rows

section Entries

abbrev entryScatter (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable {G N : Nat} (wf : ScatterDims.WF ⟨1, ![G]⟩ ⟨2, ![N, 1]⟩ ⟨1, ![N]⟩ [] [0] [0] 1)

theorem entryScatter_start {w : Nat} (n : Fin N) (idx : IVec ⟨2, ![N, 1]⟩ w) :
    (entryScatter G N wf).start (ix1 n) idx 0 = (idx (ix2 n 0)).toInt := by
  unfold ScatterDims.start
  rw [dif_pos (List.mem_singleton.mpr rfl)]
  exact congrArg (fun k => (idx k).toInt) (funext fun b => Fin.ext (by match b with | ⟨0, _⟩ => rfl | ⟨1, _⟩ => rfl))

-- Into zeros, a rank-1 scatter-add sums the updates whose id word is g.
theorem entryScatter_zero (hG : G ≤ 2 ^ 31) (z : FVec Ideal ⟨1, ![G]⟩ .f32) (hz : ∀ i, z i = 0)
    (idx : IVec ⟨2, ![N, 1]⟩ 32) (x : FVec Ideal ⟨1, ![N]⟩ .f32) (g : Fin G) :
    Host.scatterAdd (F := Ideal) (entryScatter G N wf) z idx x (ix1 g)
      = ∑ n : Fin N, GraphNet.hot idx n g.val * x (ix1 n) := by
  unfold Host.scatterAdd
  rw [Ideal.hostScatterAdd_def]
  unfold Ideal.hostScatterAdd
  rw [hz, zero_add, Finset.sum_filter, ← Equiv.sum_comp (idxEquiv1 (n := N)).symm]
  refine Finset.sum_congr rfl fun n _ => ?_
  show (if (entryScatter G N wf).resultIdx? (ix1 n) idx = some (ix1 g) then x (ix1 n) else 0) = _
  rw [GraphNet.hot, boole_mul]
  refine if_congr ?_ rfl rfl
  rw [resultIdx?_eq_some, ← toInt_eq_natCast_iff _ _ (by have := g.isLt; omega), Fin.forall_fin_one, entryScatter_start]
  show _ + ((0 : Nat) : Int) = (g.val : Int) ↔ _
  omega

end Entries

section Gather

abbrev rowDims (G N C : Nat)
    (wf : GatherDims.WF ⟨2, ![G, C]⟩ ⟨2, ![N, 1]⟩ ⟨2, ![N, C]⟩ [1] [0] [] [0] [] 1 ![1, C]) :
    GatherDims ⟨2, ![G, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

variable {G N C : Nat} (wf : GatherDims.WF ⟨2, ![G, C]⟩ ⟨2, ![N, 1]⟩ ⟨2, ![N, C]⟩ [1] [0] [] [0] [] 1 ![1, C])

-- The row gather reads the table at the start index, read signed and clamped into the table.
theorem gather_rows_apply {α : Type} {w : Nat} (h0 : 0 < G) (x : (⟨2, ![G, C]⟩ : Shape).Idx → α) (idx : IVec ⟨2, ![N, 1]⟩ w)
    (n : Fin N) (f : Fin C) :
    Host.gather (rowDims G N C wf) x idx (ix2 n f)
      = x (ix2 ⟨min (idx (ix2 n 0)).toInt.toNat (G - 1), by omega⟩ f) := by
  unfold Host.gather
  refine congrArg x (funext fun a => Fin.ext ?_)
  match a with
  | ⟨0, _⟩ =>
    show (rowDims G N C wf).start (ix2 n f) idx 0 + (rowDims G N C wf).batchCoord (ix2 n f) 0
      + (rowDims G N C wf).offCoord (ix2 n f) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    exact congrArg (fun k => min (idx k).toInt.toNat (G - 1))
      (funext fun b => Fin.ext (by match b with | ⟨0, _⟩ => rfl | ⟨1, _⟩ => rfl))
  | ⟨1, _⟩ =>
    show (rowDims G N C wf).start (ix2 n f) idx 1 + (rowDims G N C wf).batchCoord (ix2 n f) 1
      + (rowDims G N C wf).offCoord (ix2 n f) 1 = f.val
    unfold GatherDims.start
    rw [GatherDims.batchCoord_eq_zero _ _ _ List.not_mem_nil, dif_neg (show (1 : Fin 2) ∉ ([0] : List (Fin 2)) by decide)]
    exact Nat.zero_add _

-- A node whose id is k reads row k: exactly one one-hot weight is 1.
theorem rowsAt_read (hG : G ≤ 2 ^ 31) (t : FVec Ideal (⟨2, ![G, C]⟩ : Shape) .f32) (ids : IVec (⟨2, ![N, 1]⟩ : Shape) 32)
    (n : Fin N) (f : Fin C) (k : Fin G) (hk : (ids (ix2 n 0)).toInt = k.val) :
    GraphNet.rowsAt t ids (ix2 n f) = t (ix2 k f) := by
  have hw := fun g : Fin G => toInt_eq_natCast_iff (ids (ix2 n 0)) g.val (by have := g.isLt; omega)
  show ∑ g : Fin G, GraphNet.hot ids n g.val * t (ix2 g f) = _
  rw [Finset.sum_eq_single k (fun g _ hg => ?_) (fun h => absurd (Finset.mem_univ k) h), GraphNet.hot,
    if_pos ((hw k).1 hk), one_mul]
  rw [GraphNet.hot, if_neg fun h => hg (Fin.ext (by have := (hw g).2 h; omega)), zero_mul]

-- With every id in range the clamp is idle, so the gather is the one-hot read.
theorem gather_eq_rowsAt (hG : G ≤ 2 ^ 31) (idx ids : IVec (⟨2, ![N, 1]⟩ : Shape) 32)
    (h : ∀ n, idx (ix2 n 0) = ids (ix2 n 0) ∧ 0 ≤ (ids (ix2 n 0)).toInt ∧ (ids (ix2 n 0)).toInt < G)
    (t : FVec Ideal (⟨2, ![G, C]⟩ : Shape) .f32) :
    Host.gather (rowDims G N C wf) t idx = GraphNet.rowsAt t ids := by
  funext i
  obtain ⟨n, f, rfl⟩ : ∃ (n : Fin N) (f : Fin C), i = ix2 n f := ⟨i 0, i 1, eq_ix2 i⟩
  obtain ⟨e, h0, h1⟩ := h n
  rw [gather_rows_apply wf (by omega)]
  exact (rowsAt_read hG t ids n f _ (by rw [Fin.val_mk, e]; omega)).symm

end Gather

-- A plain read commutes with a function applied entry by entry.
theorem rowsAt_rsqrt {G N C : Nat} (hG : G ≤ 2 ^ 31) (ids : IVec (⟨2, ![N, 1]⟩ : Shape) 32)
    (h : ∀ n, 0 ≤ (ids (ix2 n 0)).toInt ∧ (ids (ix2 n 0)).toInt < G) (v : FVec Ideal (⟨2, ![G, C]⟩ : Shape) .f32) (e : EReal) :
    GraphNet.rowsAt (Host.rsqrt (addf v fun _ => e)) ids = fun i => Ideal.rsqrt (GraphNet.rowsAt v ids i + e) := by
  funext i
  obtain ⟨n, f, rfl⟩ : ∃ (n : Fin N) (f : Fin C), i = ix2 n f := ⟨i 0, i 1, eq_ix2 i⟩
  have hk : (ids (ix2 n 0)).toInt = ((⟨(ids (ix2 n 0)).toInt.toNat, by have := h n; omega⟩ : Fin G).val : Int) := by
    rw [Fin.val_mk]; have := h n; omega
  rw [rowsAt_read hG _ ids n f _ hk, rowsAt_read hG v ids n f _ hk]
  rfl

-- An id that is not negative is not moved by the wrap.
theorem wrap_apply {N : Nat} (h1 : (⟨1, ![N]⟩ : Shape).BroadcastsInDim ⟨2, ![N, 1]⟩ ![0])
    (h0 : (⟨0, ![]⟩ : Shape).BroadcastsInDim ⟨1, ![N]⟩ ![]) (b : IVec ⟨1, ![N]⟩ 32) (L : BitVec 32) (n : Fin N)
    (h : 0 ≤ (b (ix1 n)).toInt) :
    broadcastInDim ⟨2, ![N, 1]⟩ ![0] h1 (select (cmpi .slt b (broadcastInDim ⟨1, ![N]⟩ ![] h0 (constantI ⟨0, ![]⟩ 32 0#32)))
      (addi b (broadcastInDim ⟨1, ![N]⟩ ![] h0 (constantI ⟨0, ![]⟩ 32 L))) b) (ix2 n 0) = b (ix1 n) := by
  have hc : IntOp.cmpi .slt (b (ix1 n)) 0#32 = 0#1 := eq_zero_of_ne_one fun hh => by
    rw [IntOp.cmpi_slt, show (0#32 : BitVec 32).toInt = 0 from by decide] at hh; omega
  rw [bcast_col1]
  exact (congrArg (fun c => Scalar.select c _ (b (ix1 n))) hc).trans (select_zero _ _)

end GraphNet.Bridge

end
-- ==== Proof.Ref.Shared.lean ====
import proofs.«417558_j31903017075238_1_alg».proof.Proof.RefRead
import proofs.«417558_j31903017075238_1_alg».proof.Proof.KStages
import proofs.«417558_j31903017075238_1_alg».proof.Proof.Bridge.Ops
import Idealize.ShloMosaic.Lib.ValueLayout

noncomputable section

namespace Cert.RefSide

open Idealize.ShloMosaic Idealize.ShloMosaic.ValueIdx GraphNet GraphNet.Bridge
open Cert.ReferenceIdeal Cert.ReferenceIdeal.Gen Cert.ReferenceIdeal.Read Cert.KernelIdeal.Stage

-- Row-major position (r, 0) of an n × 1 array is r.
theorem col_cast {n : Nat} {α : Type} (b : (⟨1, ![n]⟩ : Shape).Idx → α) (h : (⟨1, ![n]⟩ : Shape).ShapeCasts ⟨2, ![n, 1]⟩) :
    shapeCast ⟨2, ![n, 1]⟩ b h = fun i => b (ix1 (i 0)) := by
  funext i
  refine shapeCast_apply b h i (ix1 (i 0)) ?_
  rw [Shape.rowMajor_val_two, Shape.rowMajor_val_one]
  have h1 : (i 1).val < 1 := (i 1).isLt
  show (i 0).val = (i 0).val * 1 + (i 1).val
  omega

theorem row_cast {n : Nat} {α : Type} (p : (⟨1, ![n]⟩ : Shape).Idx → α) (h : (⟨1, ![n]⟩ : Shape).ShapeCasts ⟨2, ![1, n]⟩) :
    shapeCast ⟨2, ![1, n]⟩ p h = fun i => p (ix1 (i 1)) :=
  funext fun i => (congrArg _ (eq_ix2 i)).trans (shapeCast_a_1a_apply p h (i 0) (i 1))

theorem ids_col (b : IVec S100000 32) : ids b = fun i => b (ix1 (i 0)) := col_cast b _

-- Ones scattered by id count the nodes of each graph: the one-column segment sum of ones.
theorem ref_counts (b : IVec S100000 32) : val_main_v10 (F := Ideal) b = counts b := by
  unfold val_main_v10 val_main_v9 val_main_v7 val_main_v8 val_main_v6 val_main_v5 val_main_v4
    val_main_cst val_main_cst_0 val_main_cst_1
  rw [bcast_col1 bcast_S1000_S1000x1_0, bcast_col1 bcast_S100000_S100000x1_0, bcast_const bcast_S_S1000,
    bcast_const bcast_S_S1000, bcast_const bcast_S_S100000]
  unfold counts
  rw [ids_col, bcast_const, bcast_const]
  funext i
  exact congrArg (fun s => max s (Ideal.ofBits .f32 0x3F800000#32)) (entryScatter_zero
    scatter_S1000_S100000x1_S100000_n_0_0_1_wf (by decide) _ (fun _ => Ideal.ofBits_zero_f32) _ _ (i 0))

section Norm

variable {C : Nat}
  (sw : ScatterDims.WF ⟨2, ![1000, C]⟩ S100000x1 ⟨2, ![100000, C]⟩ [1] [0] [0] 1)
  (gw : GatherDims.WF ⟨2, ![1000, C]⟩ S100000x1 ⟨2, ![100000, C]⟩ [1] [0] [] [0] [] 1 ![1, C])
  (hz : S_.BroadcastsInDim ⟨2, ![1000, C]⟩ ![]) (hc : S1000x1.BroadcastsInDim ⟨2, ![1000, C]⟩ ![0, 1])
  (h1 : (⟨1, ![C]⟩ : Shape).BroadcastsInDim ⟨2, ![1, C]⟩ ![1])
  (h2 : (⟨2, ![1, C]⟩ : Shape).BroadcastsInDim ⟨2, ![100000, C]⟩ ![0, 1])
  (X : FVec Ideal ⟨2, ![100000, C]⟩ .f32) (b : IVec S100000 32) (w bi a : FVec Ideal ⟨1, ![C]⟩ .f32)

/-- The reference's per-graph mean of the rows of X: the scatter-added rows over the node counts. -/
def rMean : FVec Ideal ⟨2, ![1000, C]⟩ .f32 :=
  Host.divf (Host.scatterAdd (rowScatter 1000 100000 C sw) (broadcastInDim _ ![] hz (constant (F := Ideal) S_ .f32 0x00000000#32))
    (broadcastInDim S100000x1 ![0] bcast_S100000_S100000x1_0 b) X) (broadcastInDim _ ![0, 1] hc (val_main_v10 (F := Ideal) b))

/-- The same mean written with the segment sum. -/
def kMean (ids : IVec S100000x1 32) (cnt : FVec Ideal S1000x1 .f32) : FVec Ideal ⟨2, ![1000, C]⟩ .f32 :=
  Host.divf (segSum X ids) (broadcastInDim _ ![0, 1] hc cnt)

/-- The reference's index column for t[b]: an id below zero moved up by the table length. -/
def wrapIdx : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 1000#32))) b)

/-- The reference's graph normalisation of X, operation by operation, at any column width. -/
def rNorm : FVec Ideal ⟨2, ![100000, C]⟩ .f32 :=
  let B := fun p : FVec Ideal ⟨1, ![C]⟩ .f32 => broadcastInDim ⟨2, ![100000, C]⟩ ![0, 1] h2 (broadcastInDim ⟨2, ![1, C]⟩ ![1] h1 p)
  let T := fun t => Host.gather (rowDims 1000 100000 C gw) t (wrapIdx b)
  let cen := subf X (mulf (B a) (T (rMean sw hz hc X b)))
  addf (mulf (B w) (mulf cen (T (Host.rsqrt (addf (rMean sw hz hc (mulf cen cen) b)
    (broadcastInDim _ ![] hz (constant (F := Ideal) S_ .f32 0x3727C5AC#32))))))) (B bi)

/-- The same normalisation written with the specification's functions. -/
def kNorm (ids : IVec S100000x1 32) (cnt : FVec Ideal S1000x1 .f32) (w' bi' a' : FVec Ideal ⟨2, ![1, C]⟩ .f32) :
    FVec Ideal ⟨2, ![100000, C]⟩ .f32 :=
  let cen := centre X ids (kMean hc X ids cnt) a'
  scale cen ids (kMean hc (mulf cen cen) ids cnt) w' bi'

theorem rMean_eq : rMean sw hz hc X b = kMean hc X (ids b) (counts b) := by
  unfold rMean kMean
  rw [ref_counts, ids_col, bcast_col1,
    rowScatter_zero sw (by decide) _ fun i => (congrFun (bcast_const hz _) i).trans Ideal.ofBits_zero_f32]

-- Under the id range the wrap and the clamp do nothing, so each read-back is the one-hot read of the specification.
theorem rNorm_eq (w' bi' a' : FVec Ideal ⟨2, ![1, C]⟩ .f32) (hw : w' = fun i => w (ix1 (i 1)))
    (hbi : bi' = fun i => bi (ix1 (i 1))) (ha : a' = fun i => a (ix1 (i 1)))
    (hb : ∀ n : Fin 100000, 0 ≤ (b (ix1 n)).toInt ∧ (b (ix1 n)).toInt < 1000) :
    rNorm sw gw hz hc h1 h2 X b w bi a = kNorm hc X (ids b) (counts b) w' bi' a' := by
  subst hw hbi ha
  have hr : ∀ n, wrapIdx b (ix2 n 0) = ids b (ix2 n 0) ∧ 0 ≤ (ids b (ix2 n 0)).toInt ∧ (ids b (ix2 n 0)).toInt < (1000 : Nat) :=
    fun n => by rw [ids_col]; exact ⟨wrap_apply _ _ b _ n (hb n).1, hb n⟩
  unfold rNorm kNorm
  simp only [rMean_eq, gather_eq_rowsAt gw (by decide) _ _ hr, bcast_row h1 h2, bcast_const hz,
    rowsAt_rsqrt (by decide) _ fun n => (hr n).2]
  rfl

-- A layer normalises, projects, passes the edge messages (one term on both sides) and takes the positive part.
theorem layer_eq (D : DotDims ⟨2, ![100000, C]⟩ ⟨2, ![C, 64]⟩ S100000x64) (hD : D = DotDims.plain 100000 C 64)
    (e : IVec S2x1600000 32) (W : FVec Ideal ⟨2, ![C, 64]⟩ .f32) (bias : FVec Ideal S64 .f32)
    (w' bi' a' : FVec Ideal ⟨2, ![1, C]⟩ .f32) (hw : w' = fun i => w (ix1 (i 1)))
    (hbi : bi' = fun i => bi (ix1 (i 1))) (ha : a' = fun i => a (ix1 (i 1)))
    (hb : ∀ n : Fin 100000, 0 ≤ (b (ix1 n)).toInt ∧ (b (ix1 n)).toInt < 1000) :
    maximumf (conv (Host.dotGeneral D none (rNorm sw gw hz hc h1 h2 X b w bi a) W) (val_main_v1 (F := Ideal) e)
        (val_main_v3 (F := Ideal) e) (val_main_v57 (F := Ideal) e) (val_main_v56 (F := Ideal) e) bias)
        (broadcastInDim S100000x64 ![] bcast_S_S100000x64 (constant (F := Ideal) S_ .f32 0x00000000#32))
      = convRelu (mm (kNorm hc X (ids b) (counts b) w' bi' a') W) e bias := by
  rw [rNorm_eq sw gw hz hc h1 h2 X b w bi a w' bi' a' hw hbi ha hb, dot_mm D hD]
  rfl

end Norm

end Cert.RefSide

end
-- ==== Proof.Ref.Final.lean ====
import proofs.«417558_j31903017075238_1_alg».proof.Proof.Ref.Shared
import proofs.«417558_j31903017075238_1_alg».proof.Proof.LibHead

noncomputable section

namespace Cert.RefSide

open Idealize.ShloMosaic Idealize.ShloMosaic.ValueIdx GraphNet GraphNet.Bridge GraphNet.LibHead
open Cert.ReferenceIdeal Cert.ReferenceIdeal.Gen Cert.ReferenceIdeal.Read Cert.KernelIdeal.Stage

variable (x0 : FVec Ideal S100000x16 .f32) (x1 : IVec S2x1600000 32) (x2 : IVec S100000 32) (x3 x4 x5 : FVec Ideal S16 .f32)
  (x6 : FVec Ideal S16x64 .f32) (x7 x8 x9 x10 : FVec Ideal S64 .f32) (x11 : FVec Ideal S64x64 .f32)
  (x12 x13 x14 x15 : FVec Ideal S64 .f32) (x16 : FVec Ideal S64x64 .f32) (x17 : FVec Ideal S64 .f32)
  (x18 : FVec Ideal S64x64 .f32) (x19 : FVec Ideal S64 .f32) (x20 : FVec Ideal S64x2 .f32) (x21 : FVec Ideal S2 .f32)
  (hb : ∀ n : Fin 100000, 0 ≤ (x2 (ix1 n)).toInt ∧ (x2 (ix1 n)).toInt < 1000)

include hb in
theorem ref_layer1 : val_main_v93 (F := Ideal) x0 x1 x2 x3 x4 x5 x6 x7 = layer1 x0 x1 x2 x3 x4 x5 x6 x7 :=
  layer_eq (C := 16) _ _ _ _ _ _ x0 x2 x3 x4 x5 _ rfl x1 x6 x7 _ _ _ (row_cast _ _) (row_cast _ _) (row_cast _ _) hb

include hb in
theorem ref_layer2 : val_main_v183 (F := Ideal) x0 x1 x2 x3 x4 x5 x6 x7 x8 x9 x10 x11 x12
    = layerNext (val_main_v93 (F := Ideal) x0 x1 x2 x3 x4 x5 x6 x7) x1 x2 x8 x9 x10 x11 x12 :=
  layer_eq (C := 64) _ _ _ _ _ _ _ x2 x8 x9 x10 _ rfl x1 x11 x12 _ _ _ (row_cast _ _) (row_cast _ _) (row_cast _ _) hb

include hb in
theorem ref_layer3 : val_main_v273 (F := Ideal) x0 x1 x2 x3 x4 x5 x6 x7 x8 x9 x10 x11 x12 x13 x14 x15 x16 x17
    = layerNext (val_main_v183 (F := Ideal) x0 x1 x2 x3 x4 x5 x6 x7 x8 x9 x10 x11 x12) x1 x2 x13 x14 x15 x16 x17 :=
  layer_eq (C := 64) _ _ _ _ _ _ _ x2 x13 x14 x15 _ rfl x1 x16 x17 _ _ _ (row_cast _ _) (row_cast _ _) (row_cast _ _) hb

theorem ref_pooled : val_main_v285 (F := Ideal) x0 x1 x2 x3 x4 x5 x6 x7 x8 x9 x10 x11 x12 x13 x14 x15 x16 x17
    = pooled (val_main_v273 (F := Ideal) x0 x1 x2 x3 x4 x5 x6 x7 x8 x9 x10 x11 x12 x13 x14 x15 x16 x17) x2 :=
  rMean_eq (C := 64) _ _ _ _ x2

-- The maximum along the class axis from −∞ is the row's supremum; the sum from 0 the row's sum.
theorem ref_head : val_main_v305 (F := Ideal) x0 x1 x2 x3 x4 x5 x6 x7 x8 x9 x10 x11 x12 x13 x14 x15 x16 x17 x18 x19 x20 x21
    = head (R := 1000) (K := 64) (M := 64) (C := 2) (val_main_v285 (F := Ideal) x0 x1 x2 x3 x4 x5 x6 x7 x8 x9 x10 x11 x12 x13 x14 x15 x16 x17) x18 (row64 x19) x20 (row2 x21) := by
  unfold val_main_v305 val_main_v304 val_main_v303 val_main_v302 val_main_v301 val_main_v300 val_main_v299 val_main_v298
    val_main_v297 val_main_v296 val_main_v295 val_main_v294 val_main_v293 val_main_v292 val_main_v291 val_main_v290
    val_main_v289 val_main_v288 val_main_v287 val_main_v286 val_main_call3_v0 val_main_call3_cst val_main_cst_62
    val_main_cst_63 val_main_cst_64 row64 row2
  generalize val_main_v285 (F := Ideal) x0 x1 x2 x3 x4 x5 x6 x7 x8 x9 x10 x11 x12 x13 x14 x15 x16 x17 = p
  have hmax : ∀ z : FVec Ideal S1000x2 .f32, maximumf (fun _ => Ideal.ofBits .f32 0xFF800000#32)
      (Host.reduce FloatOps.maximumf z (constant (F := Ideal) S_ .f32 0xFF800000#32) reducesTo_S1000x2_S1000_d1 h_S_)
        = fun j => rowMax z (j 0) := fun z => funext fun j => by
    obtain ⟨r, rfl⟩ : ∃ r, j = ix1 r := ⟨j 0, eq_ix1 j⟩
    refine (congrArg (max _) (Host.reduce_eq_fold_single FloatOps.maximumf z _ reducesTo_S1000x2_S1000_d1 (by decide) h_S_ _)).trans ?_
    exact (max_fold_negInf _ _).trans (Finset.sup_congr rfl fun k _ => congrArg z (lift_row _ r k))
  have hsum : ∀ e : FVec Ideal S1000x2 .f32,
      Host.reduceAdd e (constant (F := Ideal) S_ .f32 0x00000000#32) reducesTo_S1000x2_S1000_d1 h_S_
        = fun j => ∑ k : Fin 2, e (ix2 (j 0) k) := fun e => funext fun j => by
    obtain ⟨r, rfl⟩ : ∃ r, j = ix1 r := ⟨j 0, eq_ix1 j⟩
    simp only [Host.reduceAdd, Ideal.hostReduceAdd_def]
    rw [Ideal.hostReduceAdd_single reducesTo_S1000x2_S1000_d1 (by decide)]
    exact (congrArg (· + _) Ideal.ofBits_zero_f32).trans ((zero_add _).trans
      (Finset.sum_congr rfl fun k _ => congrArg e (lift_row _ r k)))
  simp only [row_cast x19, row_cast x21, dot_mm dot_S1000x64_S64x64_S1000x64_1_0_0_1_n_n rfl,
    dot_mm dot_S1000x64_S64x2_S1000x2_1_0_0_1_n_n rfl, bcast_row bcast_S64_S1x64_1 bcast_S1x64_S1000x64_0_1,
    bcast_row bcast_S2_S1x2_1 bcast_S1x2_S1000x2_0_1, bcast_col bcast_S1000_S1000x1_0 bcast_S1000x1_S1000x2_0_1,
    bcast_const bcast_S_S1000x64, bcast_const bcast_S_S1000, hmax, hsum, Ideal.ofBits_zero_f32]
  rfl

include hb in
theorem ref_net : val_main_v305 (F := Ideal) x0 x1 x2 x3 x4 x5 x6 x7 x8 x9 x10 x11 x12 x13 x14 x15 x16 x17 x18 x19 x20 x21
    = net x0 x1 x2 x3 x4 x5 x6 x7 x8 x9 x10 x11 x12 x13 x14 x15 x16 x17 x18 x19 x20 x21 := by
  rw [ref_head, ref_pooled, ref_layer3 x0 x1 x2 x3 x4 x5 x6 x7 x8 x9 x10 x11 x12 x13 x14 x15 x16 x17 hb, ref_layer2 x0 x1 x2 x3 x4 x5 x6 x7 x8 x9 x10 x11 x12 hb,
    ref_layer1 x0 x1 x2 x3 x4 x5 x6 x7 hb]
  rfl

end Cert.RefSide

end
-- ==== Proof.lean ====
import proofs.«417558_j31903017075238_1_alg».proof.Defs
import proofs.«417558_j31903017075238_1_alg».proof.Proof.Gen.Kernel
import proofs.«417558_j31903017075238_1_alg».proof.Proof.Gen.Kernel.Skeleton
import proofs.«417558_j31903017075238_1_alg».proof.Proof.Gen.Kernel.Launch
import proofs.«417558_j31903017075238_1_alg».proof.Proof.Gen.Kernel.Points
import proofs.«417558_j31903017075238_1_alg».proof.Proof.Gen.Kernel.Frame
import proofs.«417558_j31903017075238_1_alg».proof.Proof.Gen.KernelIdeal
import proofs.«417558_j31903017075238_1_alg».proof.Proof.Gen.KernelIdeal.Skeleton
import proofs.«417558_j31903017075238_1_alg».proof.Proof.Gen.KernelIdeal.Launch
import proofs.«417558_j31903017075238_1_alg».proof.Proof.Gen.KernelIdeal.Points
import proofs.«417558_j31903017075238_1_alg».proof.Proof.Gen.KernelIdeal.Frame
import proofs.«417558_j31903017075238_1_alg».proof.Proof.Gen.ReferenceIdeal
import proofs.«417558_j31903017075238_1_alg».proof.Proof.RefRead
import proofs.«417558_j31903017075238_1_alg».proof.Proof.RefRun
import proofs.«417558_j31903017075238_1_alg».proof.Proof.Gen.Pre_finite_inputs
import proofs.«417558_j31903017075238_1_alg».proof.Proof.KRun
import proofs.«417558_j31903017075238_1_alg».proof.Proof.KChainD
import proofs.«417558_j31903017075238_1_alg».proof.Proof.PreRange
import proofs.«417558_j31903017075238_1_alg».proof.Proof.Ref.Final
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunC.run (F := Ideal) m ρ)

/-- Both runs end at the same function of the arguments; the reference's needs the graph ids in range, which the precondition gives. -/
theorem algebraic : Cert.algebraic_KernelIdeal_ReferenceIdeal := by
  intro m ρ m' ρ' hpre hagree
  refine ⟨fun c => Cert.KernelIdeal.Stage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun _ h c => ⟨(h c).1.trans (Cert.KernelIdeal.Chain.kernel_value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.RunC.run (F := Ideal) m' ρ')
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]
    exact Cert.RefSide.ref_net _ _ _ _ _ _ _ _ _ _ _ _ _ _ _ _ _ _ _ _ _ _ (fun n => GraphNet.batch_in_range m hpre c n)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
